-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x48 : Shape := ⟨2, ![100000, 48]⟩
abbrev S2x1600000 : Shape := ⟨2, ![2, 1600000]⟩
abbrev S128x48 : Shape := ⟨2, ![128, 48]⟩
abbrev S128 : Shape := ⟨1, ![128]⟩
abbrev S128x128 : Shape := ⟨2, ![128, 128]⟩
abbrev S_ : Shape := ⟨0, ![]⟩
abbrev S1x1600000 : Shape := ⟨2, ![1, 1600000]⟩

class Facts : Prop where
  bcast_S_S100000x48 : S_.BroadcastsInDim S100000x48 (![] : Fin 0 → Fin S100000x48.rank)
  reducesTo_S100000x48_S_d0_1 : S100000x48.ReducesTo [0, 1] S_
  h_S_ : 0 < S_.numel
  bcast_S_S128x48 : S_.BroadcastsInDim S128x48 (![] : Fin 0 → Fin S128x48.rank)
  reducesTo_S128x48_S_d0_1 : S128x48.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  slices_S2x1600000_S1x1600000_0_0 : S2x1600000.Slices ![0, 0] S1x1600000
  bcast_S_S1x1600000 : S_.BroadcastsInDim S1x1600000 (![] : Fin 0 → Fin S1x1600000.rank)
  reducesTo_S1x1600000_S_d0_1 : S1x1600000.ReducesTo [0, 1] S_

variable [Facts]

def fn_part3 {F : FTy → Type} [FloatOps F] (main_arg1 : IVec S2x1600000 32) (main_v48 : IVec S_ 1) (main_v49 : IVec S1x1600000 32) (main_v50 : IVec S1x1600000 32) : IVec S_ 1 :=
  let main_v51 : IVec S1x1600000 1 := cmpi .sge main_v49 main_v50
  let main_c_19 : IVec S_ 1 := constantI S_ 1 1#1
  let main_v52 : IVec S_ 1 := (fun x v => Host.reduce IntOp.andi x v reducesTo_S1x1600000_S_d0_1 h_S_) main_v51 main_c_19
  let main_v53 : IVec S_ 1 := andi main_v48 main_v52
  let main_v54 : IVec S1x1600000 32 := (extractStridedSlice S1x1600000 ![0, 0] · slices_S2x1600000_S1x1600000_0_0) main_arg1
  let main_c_20 : IVec S_ 32 := constantI S_ 32 100000#32
  let main_v55 : IVec S1x1600000 32 := broadcastInDim S1x1600000 ![] bcast_S_S1x1600000 main_c_20
  let main_v56 : IVec S1x1600000 1 := cmpi .slt main_v54 main_v55
  let main_c_21 : IVec S_ 1 := constantI S_ 1 1#1
  let main_v57 : IVec S_ 1 := (fun x v => Host.reduce IntOp.andi x v reducesTo_S1x1600000_S_d0_1 h_S_) main_v56 main_c_21
  let main_v58 : IVec S_ 1 := andi main_v53 main_v57
  main_v58

def fn_part2 {F : FTy → Type} [FloatOps F] (main_arg1 : IVec S2x1600000 32) (main_arg8 : FVec F S128x128 .f32) (main_arg9 : FVec F S128 .f32) (main_arg10 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : IVec S1x1600000 32 := (extractStridedSlice S1x1600000 ![0, 0] · slices_S2x1600000_S1x1600000_0_0) main_arg1
  let main_c_18 : IVec S_ 32 := constantI S_ 32 4294867296#32
  let main_v50 : IVec S1x1600000 32 := broadcastInDim S1x1600000 ![] bcast_S_S1x1600000 main_c_18
  fn_part3 (F := F) main_arg1 main_v48 main_v49 main_v50

def fn_part1 {F : FTy → Type} [FloatOps F] (main_arg1 : IVec S2x1600000 32) (main_arg5 : FVec F S128 .f32) (main_arg6 : FVec F S128x128 .f32) (main_arg7 : FVec F S128 .f32) (main_arg8 : FVec F S128x128 .f32) (main_arg9 : FVec F S128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_v33

def fn {F : FTy → Type} [FloatOps F] (main_arg0 : FVec F S100000x48 .f32) (main_arg1 : IVec S2x1600000 32) (main_arg2 : FVec F S128x48 .f32) (main_arg3 : FVec F S128 .f32) (main_arg4 : FVec F S128 .f32) (main_arg5 : FVec F S128 .f32) (main_arg6 : FVec F S128x128 .f32) (main_arg7 : FVec F S128 .f32) (main_arg8 : FVec F S128x128 .f32) (main_arg9 : FVec F S128 .f32) (main_arg10 : FVec F S128 .f32) : IVec S_ 1 :=
  let main_v0 : FVec F S100000x48 .f32 := Host.absf main_arg0
  let main_cst : FVec F S_ .f32 := constant S_ .f32 0x7F800000#32
  let main_v1 : FVec F S100000x48 .f32 := broadcastInDim S100000x48 ![] bcast_S_S100000x48 main_cst
  let main_v2 : IVec S100000x48 1 := cmpf .olt main_v0 main_v1
  let main_c : IVec S_ 1 := constantI S_ 1 1#1
  let main_v3 : IVec S_ 1 := (fun x v => Host.reduce IntOp.andi x v reducesTo_S100000x48_S_d0_1 h_S_) main_v2 main_c
  let main_v4 : FVec F S128x48 .f32 := Host.absf main_arg2
  let main_cst_0 : FVec F S_ .f32 := constant S_ .f32 0x7F800000#32
  let main_v5 : FVec F S128x48 .f32 := broadcastInDim S128x48 ![] bcast_S_S128x48 main_cst_0
  let main_v6 : IVec S128x48 1 := cmpf .olt main_v4 main_v5
  let main_c_1 : IVec S_ 1 := constantI S_ 1 1#1
  let main_v7 : IVec S_ 1 := (fun x v => Host.reduce IntOp.andi x v reducesTo_S128x48_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_v13 main_v16
-- ==== Kernel.lean ====
abbrev S100000x48 : Shape := ⟨2, ![100000, 48]⟩
abbrev S2x1600000 : Shape := ⟨2, ![2, 1600000]⟩
abbrev S128x48 : Shape := ⟨2, ![128, 48]⟩
abbrev S128 : Shape := ⟨1, ![128]⟩
abbrev S128x128 : Shape := ⟨2, ![128, 128]⟩
abbrev S1x128 : Shape := ⟨2, ![1, 128]⟩
abbrev S100000x128 : Shape := ⟨2, ![100000, 128]⟩
abbrev S2000x48 : Shape := ⟨2, ![2000, 48]⟩
abbrev S2000x128 : Shape := ⟨2, ![2000, 128]⟩
abbrev S48x128 : Shape := ⟨2, ![48, 128]⟩
abbrev S_ : Shape := ⟨0, ![]⟩
abbrev S1x1600000 : Shape := ⟨2, ![1, 1600000]⟩
abbrev S1600000 : Shape := ⟨1, ![1600000]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S100000 : Shape := ⟨1, ![100000]⟩
abbrev S100000x1 : Shape := ⟨2, ![100000, 1]⟩

abbrev nBuf : Space → Nat
  | .hbm => 84
  | .vmem => 39
  | .smem => 0
  | _ => 0

abbrev bufTy : (tb : Table) → Fin (tcTables nBuf tb) → BufTy
  | .hbm, ⟨0, _⟩ => ⟨S100000x48, .f32⟩
  | .hbm, ⟨1, _⟩ => ⟨S2x1600000, .i32⟩
  | .hbm, ⟨2, _⟩ => ⟨S128x48, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S1x128, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S100000x128, .f32⟩
  | .hbm, ⟨18, _⟩ => ⟨S1x128, .f32⟩
  | .hbm, ⟨19, _⟩ => ⟨S1x128, .f32⟩
  | .hbm, ⟨20, _⟩ => ⟨S_, .f32⟩
  | .hbm, ⟨21, _⟩ => ⟨S1x128, .f32⟩
  | .hbm, ⟨22, _⟩ => ⟨S1x128, .f32⟩
  | .hbm, ⟨23, _⟩ => ⟨S_, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S100000x128, .f32⟩
  | .hbm, ⟨29, _⟩ => ⟨S1x1600000, .i32⟩
  | .hbm, ⟨30, _⟩ => ⟨S1600000, .i32⟩
  | .hbm, ⟨31, _⟩ => ⟨S1x1600000, .i32⟩
  | .hbm, ⟨32, _⟩ => ⟨S1600000, .i32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1, .i32⟩
  | .hbm, ⟨42, _⟩ => ⟨S_, .i32⟩
  | .hbm, ⟨43, _⟩ => ⟨S1600000x1, .i32⟩
  | .hbm, ⟨44, _⟩ => ⟨S1600000x1, .i1⟩
  | .hbm, ⟨45, _⟩ => ⟨S1x1, .i32⟩
  | .hbm, ⟨46, _⟩ => ⟨S1600000x1, .i32⟩
  | .hbm, ⟨47, _⟩ => ⟨S1600000x1, .i1⟩
  | .hbm, ⟨48, _⟩ => ⟨S1600000x1, .i1⟩
  | .hbm, ⟨49, _⟩ => ⟨S_, .i1⟩
  | .hbm, ⟨50, _⟩ => ⟨S1600000, .i1⟩
  | .hbm, ⟨51, _⟩ => ⟨S1600000x128, .f32⟩
  | .hbm, ⟨52, _⟩ => ⟨S1600000x128, .i1⟩
  | .hbm, ⟨53, _⟩ => ⟨S_, .f32⟩
  | .hbm, ⟨54, _⟩ => ⟨S1600000x128, .f32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S_, .f32⟩
  | .hbm, ⟨61, _⟩ => ⟨S1600000, .f32⟩
  | .hbm, ⟨62, _⟩ => ⟨S_, .f32⟩
  | .hbm, ⟨63, _⟩ => ⟨S100000, .f32⟩
  | .hbm, ⟨64, _⟩ => ⟨S1600000x1, .i32⟩
  | .hbm, ⟨65, _⟩ => ⟨S100000, .f32⟩
  | .hbm, ⟨66, _⟩ => ⟨S_, .f32⟩
  | .hbm, ⟨67, _⟩ => ⟨S100000, .f32⟩
  | .hbm, ⟨68, _⟩ => ⟨S100000, .f32⟩
  | .hbm, ⟨69, _⟩ => ⟨S100000x1, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S1x128, .f32⟩
  | .hbm, ⟨74, _⟩ => ⟨S1x128, .f32⟩
  | .hbm, ⟨75, _⟩ => ⟨S_, .f32⟩
  | .hbm, ⟨76, _⟩ => ⟨S1x128, .f32⟩
  | .hbm, ⟨77, _⟩ => ⟨S1x128, .f32⟩
  | .hbm, ⟨78, _⟩ => ⟨S_, .f32⟩
  | .hbm, ⟨79, _⟩ => ⟨S1x128, .f32⟩
  | .hbm, ⟨80, _⟩ => ⟨S1x128, .f32⟩
  | .hbm, ⟨81, _⟩ => ⟨S1x128, .f32⟩
  | .hbm, ⟨82, _⟩ => ⟨S1x128, .f32⟩
  | .hbm, ⟨83, _⟩ => ⟨S100000x128, .f32⟩
  | .local _ .vmem, ⟨0, _⟩ => ⟨S2000x48, .f32⟩
  | .local _ .vmem, ⟨1, _⟩ => ⟨S2000x48, .f32⟩
  | .local _ .vmem, ⟨2, _⟩ => ⟨S128x48, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S2000x128, .f32⟩
  | .local _ .vmem, ⟨26, _⟩ => ⟨S2000x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S2000x128, .f32⟩
  | .local _ .vmem, ⟨32, _⟩ => ⟨S2000x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S2000x128, .f32⟩
  | .local _ .vmem, ⟨38, _⟩ => ⟨S2000x128, .f32⟩
  | _, _ => ⟨S100000x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_call0_c : Ref sig .tc := ⟨.hbm, 33, rfl⟩
abbrev main_call0_v0 : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_c_1 : Ref sig .tc := ⟨.hbm, 41, rfl⟩
abbrev main_call0_c_2 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_3 : Ref sig .tc := ⟨.hbm, 49, rfl⟩
abbrev main_call0_v12 : Ref sig .tc := ⟨.hbm, 50, rfl⟩
abbrev main_call0_v13 : Ref sig .tc := ⟨.hbm, 51, rfl⟩
abbrev main_call0_v14 : Ref sig .tc := ⟨.hbm, 52, rfl⟩
abbrev main_call0_cst : Ref sig .tc := ⟨.hbm, 53, rfl⟩
abbrev main_call0_v15 : Ref sig .tc := ⟨.hbm, 54, rfl⟩
abbrev main_v18 : Ref sig .tc := ⟨.hbm, 55, rfl⟩
abbrev main_cst_1 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_cst_2 : Ref sig .tc := ⟨.hbm, 60, rfl⟩
abbrev main_v22 : Ref sig .tc := ⟨.hbm, 61, rfl⟩
abbrev main_cst_3 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_cst_4 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31_0 : Ref sig .tc := ⟨.hbm, 72, rfl⟩
abbrev main_v31_1 : Ref sig .tc := ⟨.hbm, 73, rfl⟩
abbrev main_v31_2 : Ref sig .tc := ⟨.hbm, 74, rfl⟩
abbrev main_cst_5 : Ref sig .tc := ⟨.hbm, 75, rfl⟩
abbrev main_v32 : Ref sig .tc := ⟨.hbm, 76, rfl⟩
abbrev main_v33 : Ref sig .tc := ⟨.hbm, 77, rfl⟩
abbrev main_cst_6 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc2_stg6_0 : Ref sig .tc := ⟨.vmem, 27, rfl⟩
abbrev cc2_stg7_0 : Ref sig .tc := ⟨.vmem, 28, rfl⟩
abbrev cc2_scratch0 : Ref sig .tc := ⟨.vmem, 29, rfl⟩
abbrev cc2_scratch1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg5_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24
abbrev cc2_sem6_0 : DmaSem sig := 25
abbrev cc2_sem7_0 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem5_1 : DmaSem sig := 34

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v29 : BitVec 1 := Scalar.cmpi .eq arg0 c49_i32
  let v30 : BitVec 32 := Scalar.extui v29
  let c0_i32_18 : BitVec 32 := 0#32
  let v31 : BitVec 1 := Scalar.cmpi .ne v30 c0_i32_18
  v31

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def k2_cond2 (i : grid2.Coords) : BitVec 1 :=
  let arg0 : BitVec 32 := BitVec.ofNat 32 (i 0).val
  let c49_i32 : BitVec 32 := 49#32
  let v38 : BitVec 1 := Scalar.cmpi .eq arg0 c49_i32
  let v39 : BitVec 32 := Scalar.extui v38
  let c0_i32_23 : BitVec 32 := 0#32
  let v40 : BitVec 1 := Scalar.cmpi .ne v39 c0_i32_23
  v40

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S2000x48_S2000x48_0_0 : ∀ a, (![0, 0] : Fin 2 → Nat) a + S2000x48.size a ≤ S2000x48.size a
  h_S2000x48 : 0 < S2000x48.numel
  bitsLt_bf16_f32 : FTy.bits .bf16 < FTy.bits .f32
  inb_S128x48_S128x48_0_0 : ∀ a, (![0, 0] : Fin 2 → Nat) a + S128x48.size a ≤ S128x48.size a
  h_S128x48 : 0 < S128x48.numel
  transposes_S128x48_p1_0_S48x128 : S128x48.Transposes [1, 0] S48x128
  broadcasts_S1x128_S2000x128 : S1x128.Broadcasts S2000x128
  reduces_S2000x128_S128 : S2000x128.Reduces [0] S128
  inb_S2000x128_S2000x128_0_0 : ∀ a, (![0, 0] : Fin 2 → Nat) a + S2000x128.size a ≤ S2000x128.size a
  h_S2000x128 : 0 < S2000x128.numel
  bcast_S_S1x128 : S_.BroadcastsInDim S1x128 (![] : Fin 0 → Fin S1x128.rank)
  shapeCasts_S2000x128_S2000x128 : S2000x128.ShapeCasts S2000x128
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  dot_S2000x48_S48x128_S2000x128_1_0_0_1_n_n_wf : DotDims.WF S2000x48 S48x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x48.size a ≤ S100000x48.size a
  hwx0_0 : ∀ i : grid0.Coords, EltTy.bits .f32 = 32 ∨ (Rect.block (s := S100000x48) S2000x48.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x48.size a ≤ S128x48.size a
  hwx0_1 : ∀ i : grid0.Coords, EltTy.bits .f32 = 32 ∨ (Rect.block (s := S128x48) S128x48.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S100000x128.size a
  hwx2_5 : ∀ i : grid2.Coords, EltTy.bits .f32 = 32 ∨ (Rect.block (s := S100000x128) S2000x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S100000x128.size a
  hwx3_5 : ∀ i : grid3.Coords, EltTy.bits .f32 = 32 ∨ (Rect.block (s := S100000x128) S2000x128.size (cc3_transform_5 i) (hinb3_5 i)).WholeWords (EltTy.packing .f32)

variable [Facts₀]

def dot_S2000x48_S48x128_S2000x128_1_0_0_1_n_n : DotDims S2000x48 S48x128 S2000x128 where
  lhsContracting := [1]
  rhsContracting := [0]
  lhsNonContracting := [0]
  rhsNonContracting := [1]
  lhsBatch := []
  rhsBatch := []
  wf := dot_S2000x48_S48x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x48.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S2000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S1x128.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6_2) S1x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v6_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v30) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v3) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v31_0) S2000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v31_1) S1x128.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v31_2) S1x128.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun i => !(k2_cond2 i == 1#1) | 7 => fun i => !(k2_cond2 i == 1#1) | ⟨_ + 8, h⟩ => absurd h (Nat.not_lt.2 (Nat.le_add_left _ _))

abbrev win3_0 : Pipeline.Window sig grid3 :=
  Pipeline.Window.ofSpec (Memref.whole main_v31_0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v33) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v37) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v4) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v5) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v38) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x48 : Shape := ⟨2, ![100000, 48]⟩
abbrev S2x1600000 : Shape := ⟨2, ![2, 1600000]⟩
abbrev S128x48 : Shape := ⟨2, ![128, 48]⟩
abbrev S128 : Shape := ⟨1, ![128]⟩
abbrev S128x128 : Shape := ⟨2, ![128, 128]⟩
abbrev S48x128 : Shape := ⟨2, ![48, 128]⟩
abbrev S100000x128 : Shape := ⟨2, ![100000, 128]⟩
abbrev S1x128 : Shape := ⟨2, ![1, 128]⟩
abbrev S_ : Shape := ⟨0, ![]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩

abbrev nBuf : Space → Nat
  | .hbm => 116
  | .vmem => 0
  | .smem => 0
  | _ => 0

abbrev bufTy : (tb : Table) → Fin (tcTables nBuf tb) → BufTy
  | .hbm, ⟨0, _⟩ => ⟨S100000x48, .f32⟩
  | .hbm, ⟨1, _⟩ => ⟨S2x1600000, .i32⟩
  | .hbm, ⟨2, _⟩ => ⟨S128x48, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S48x128, .f32⟩
  | .hbm, ⟨12, _⟩ => ⟨S100000x128, .f32⟩
  | .hbm, ⟨13, _⟩ => ⟨S1x128, .f32⟩
  | .hbm, ⟨14, _⟩ => ⟨S100000x128, .f32⟩
  | .hbm, ⟨15, _⟩ => ⟨S100000x128, .f32⟩
  | .hbm, ⟨16, _⟩ => ⟨S_, .f32⟩
  | .hbm, ⟨17, _⟩ => ⟨S128, .f32⟩
  | .hbm, ⟨18, _⟩ => ⟨S_, .f32⟩
  | .hbm, ⟨19, _⟩ => ⟨S128, .f32⟩
  | .hbm, ⟨20, _⟩ => ⟨S128, .f32⟩
  | .hbm, ⟨21, _⟩ => ⟨S1x128, .f32⟩
  | .hbm, ⟨22, _⟩ => ⟨S100000x128, .f32⟩
  | .hbm, ⟨23, _⟩ => ⟨S100000x128, .f32⟩
  | .hbm, ⟨24, _⟩ => ⟨S100000x128, .f32⟩
  | .hbm, ⟨25, _⟩ => ⟨S_, .f32⟩
  | .hbm, ⟨26, _⟩ => ⟨S128, .f32⟩
  | .hbm, ⟨27, _⟩ => ⟨S_, .f32⟩
  | .hbm, ⟨28, _⟩ => ⟨S128, .f32⟩
  | .hbm, ⟨29, _⟩ => ⟨S128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S_, .f32⟩
  | .hbm, ⟨34, _⟩ => ⟨S128, .f32⟩
  | .hbm, ⟨35, _⟩ => ⟨S128, .f32⟩
  | .hbm, ⟨36, _⟩ => ⟨S128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S1x1600000, .i32⟩
  | .hbm, ⟨50, _⟩ => ⟨S1600000, .i32⟩
  | .hbm, ⟨51, _⟩ => ⟨S1x1600000, .i32⟩
  | .hbm, ⟨52, _⟩ => ⟨S1600000, .i32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .f32⟩
  | .hbm, ⟨62, _⟩ => ⟨S_, .f32⟩
  | .hbm, ⟨63, _⟩ => ⟨S100000x128, .f32⟩
  | .hbm, ⟨64, _⟩ => ⟨S1600000x1, .i32⟩
  | .hbm, ⟨65, _⟩ => ⟨S100000x128, .f32⟩
  | .hbm, ⟨66, _⟩ => ⟨S_, .f32⟩
  | .hbm, ⟨67, _⟩ => ⟨S1600000, .f32⟩
  | .hbm, ⟨68, _⟩ => ⟨S_, .f32⟩
  | .hbm, ⟨69, _⟩ => ⟨S100000, .f32⟩
  | .hbm, ⟨70, _⟩ => ⟨S1600000x1, .i32⟩
  | .hbm, ⟨71, _⟩ => ⟨S100000, .f32⟩
  | .hbm, ⟨72, _⟩ => ⟨S_, .f32⟩
  | .hbm, ⟨73, _⟩ => ⟨S100000, .f32⟩
  | .hbm, ⟨74, _⟩ => ⟨S100000, .f32⟩
  | .hbm, ⟨75, _⟩ => ⟨S100000x1, .f32⟩
  | .hbm, ⟨76, _⟩ => ⟨S100000x128, .f32⟩
  | .hbm, ⟨77, _⟩ => ⟨S100000x128, .f32⟩
  | .hbm, ⟨78, _⟩ => ⟨S128x128, .f32⟩
  | .hbm, ⟨79, _⟩ => ⟨S100000x128, .f32⟩
  | .hbm, ⟨80, _⟩ => ⟨S1x128, .f32⟩
  | .hbm, ⟨81, _⟩ => ⟨S100000x128, .f32⟩
  | .hbm, ⟨82, _⟩ => ⟨S100000x128, .f32⟩
  | .hbm, ⟨83, _⟩ => ⟨S128x128, .f32⟩
  | .hbm, ⟨84, _⟩ => ⟨S100000x128, .f32⟩
  | .hbm, ⟨85, _⟩ => ⟨S100000x128, .f32⟩
  | .hbm, ⟨86, _⟩ => ⟨S_, .f32⟩
  | .hbm, ⟨87, _⟩ => ⟨S128, .f32⟩
  | .hbm, ⟨88, _⟩ => ⟨S_, .f32⟩
  | .hbm, ⟨89, _⟩ => ⟨S128, .f32⟩
  | .hbm, ⟨90, _⟩ => ⟨S128, .f32⟩
  | .hbm, ⟨91, _⟩ => ⟨S1x128, .f32⟩
  | .hbm, ⟨92, _⟩ => ⟨S100000x128, .f32⟩
  | .hbm, ⟨93, _⟩ => ⟨S100000x128, .f32⟩
  | .hbm, ⟨94, _⟩ => ⟨S100000x128, .f32⟩
  | .hbm, ⟨95, _⟩ => ⟨S_, .f32⟩
  | .hbm, ⟨96, _⟩ => ⟨S128, .f32⟩
  | .hbm, ⟨97, _⟩ => ⟨S_, .f32⟩
  | .hbm, ⟨98, _⟩ => ⟨S128, .f32⟩
  | .hbm, ⟨99, _⟩ => ⟨S128, .f32⟩
  | .hbm, ⟨100, _⟩ => ⟨S1x128, .f32⟩
  | .hbm, ⟨101, _⟩ => ⟨S100000x128, .f32⟩
  | .hbm, ⟨102, _⟩ => ⟨S100000x128, .f32⟩
  | .hbm, ⟨103, _⟩ => ⟨S_, .f32⟩
  | .hbm, ⟨104, _⟩ => ⟨S128, .f32⟩
  | .hbm, ⟨105, _⟩ => ⟨S128, .f32⟩
  | .hbm, ⟨106, _⟩ => ⟨S128, .f32⟩
  | .hbm, ⟨107, _⟩ => ⟨S1x128, .f32⟩
  | .hbm, ⟨108, _⟩ => ⟨S100000x128, .f32⟩
  | .hbm, ⟨109, _⟩ => ⟨S100000x128, .f32⟩
  | .hbm, ⟨110, _⟩ => ⟨S1x128, .f32⟩
  | .hbm, ⟨111, _⟩ => ⟨S100000x128, .f32⟩
  | .hbm, ⟨112, _⟩ => ⟨S100000x128, .f32⟩
  | .hbm, ⟨113, _⟩ => ⟨S1x128, .f32⟩
  | .hbm, ⟨114, _⟩ => ⟨S100000x128, .f32⟩
  | .hbm, ⟨115, _⟩ => ⟨S100000x128, .f32⟩
  | _, _ => ⟨S100000x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call0_cst : Ref sig .tc := ⟨.hbm, 46, rfl⟩
abbrev main_call0_v0 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c : Ref sig .tc := ⟨.hbm, 53, rfl⟩
abbrev main_v35 : Ref sig .tc := ⟨.hbm, 54, rfl⟩
abbrev main_v36 : Ref sig .tc := ⟨.hbm, 55, rfl⟩
abbrev main_c_4 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_5 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_6 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_8 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_9 : Ref sig .tc := ⟨.hbm, 86, rfl⟩
abbrev main_v62 : Ref sig .tc := ⟨.hbm, 87, rfl⟩
abbrev main_cst_10 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_11 : Ref sig .tc := ⟨.hbm, 95, rfl⟩
abbrev main_v69 : Ref sig .tc := ⟨.hbm, 96, rfl⟩
abbrev main_cst_12 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_13 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩

abbrev nD : Nat := 1
abbrev τ : Topo := Topo.v7x

variable {F : FTy → Type} [FloatOps F]

class Facts₀ : Prop where
  transposes_S128x48_S48x128_1_0 : S128x48.Transposes [1, 0] S48x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S100000x128 : S_.BroadcastsInDim S100000x128 (![] : Fin 0 → Fin S100000x128.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  dot_S100000x48_S48x128_S100000x128_1_0_0_1_n_n_wf : DotDims.WF S100000x48 S48x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def dot_S100000x48_S48x128_S100000x128_1_0_0_1_n_n : DotDims S100000x48 S48x128 S100000x128 where
  lhsContracting := [1]
  rhsContracting := [0]
  lhsNonContracting := [0]
  rhsNonContracting := [1]
  lhsBatch := []
  rhsBatch := []
  wf := dot_S100000x48_S48x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
import Idealize.ShloMosaic.PureOps.Ideal
import Mathlib.Algebra.BigOperators.Fin

noncomputable section

namespace Cert.Spec

open Idealize.ShloMosaic

abbrev Rows (k : ℕ) := Fin 100000 → Fin k → EReal
abbrev Wgt (k : ℕ) := Fin 128 → Fin k → EReal
abbrev Vec128 := Fin 128 → EReal

def cN : EReal := Ideal.ofBits .f32 0x47C35000#32
def cEps : EReal := Ideal.ofBits .f32 0x3727C5AC#32
def cOne : EReal := Ideal.ofBits .f32 0x3F800000#32

def dense {k : ℕ} (x : Rows k) (W : Wgt k) (b : Vec128) : Rows 128 := fun r c => (∑ l : Fin k, x r l * W c l) + b c

def colSum (h : Rows 128) : Vec128 := fun c => ∑ r : Fin 100000, h r c
def mean (h : Rows 128) : Vec128 := fun c => Ideal.div (colSum h c) cN
def varK (h : Rows 128) : Vec128 := fun c => Ideal.div (colSum (fun r c => h r c * h r c) c) cN - mean h c * mean h c
def varR (h : Rows 128) : Vec128 := fun c => Ideal.div (colSum (fun r c => (h r c - mean h c) * (h r c - mean h c)) c) cN

def bn (h : Rows 128) (v g b : Vec128) : Rows 128 := fun r c => (h r c - mean h c) * Ideal.rsqrt (v c + cEps) * g c + b c

def feat (var : Rows 128 → Vec128) (x : Rows 48) (W1 : Wgt 48) (b1 g1 be1 : Vec128) : Rows 128 :=
  fun r c => max (bn (dense x W1 b1) (var (dense x W1 b1)) g1 be1 r c) 0

def wrapWord (s : BitVec 32) : BitVec 32 := if s.toInt < 0 then s + 100000#32 else s

def rowOf (w : BitVec 32) : Fin 100000 := ⟨min w.toInt.toNat 99999, by omega⟩

def summed (f : Rows 128) (widx dst : Fin 1600000 → BitVec 32) : Rows 128 :=
  fun r c => 0 + ∑ n : Fin 1600000, if (dst n).toInt = (r.val : ℤ) then f (rowOf (widx n)) c else 0
def cnt (dst : Fin 1600000 → BitVec 32) : Fin 100000 → EReal :=
  fun r => 0 + ∑ n : Fin 1600000, if (dst n).toInt = (r.val : ℤ) then cOne else 0
def agg (f : Rows 128) (widx dst : Fin 1600000 → BitVec 32) : Rows 128 :=
  fun r c => Ideal.div (summed f widx dst r c) (max (cnt dst r) cOne)

def sage (a f : Rows 128) (Wl : Wgt 128) (bl : Vec128) (Wr : Wgt 128) : Rows 128 :=
  fun r c => ((∑ l : Fin 128, a r l * Wl c l) + bl c) + ∑ l : Fin 128, f r l * Wr c l

def out (var : Rows 128 → Vec128) (f : Rows 128) (widx dst : Fin 1600000 → BitVec 32) (Wl : Wgt 128) (bl : Vec128) (Wr : Wgt 128)
    (g2 be2 : Vec128) : Rows 128 :=
  bn (sage (agg f widx dst) f Wl bl Wr) (var (sage (agg f widx dst) f Wl bl Wr)) g2 be2

def IsReal (v : EReal) : Prop := ∃ a : ℝ, v = (a : EReal)

end Cert.Spec

end
-- ==== Proof.SpecAlg.lean ====
import proofs.«427484_j7000796693090_1_alg».proof.Proof.Spec
import Idealize.ShloMosaic.PureOps.Ideal
import Mathlib.Data.EReal.Inv
import Mathlib.Algebra.BigOperators.Ring.Finset
import Mathlib.Algebra.Order.BigOperators.Group.Finset
import Mathlib.Tactic.Ring
import Mathlib.Tactic.NormNum

noncomputable section

namespace Cert.Spec

open Idealize.ShloMosaic

theorem cN_eq : cN = ((100000 : ℝ) : EReal) := by
  simp [cN, Ideal.ofBits, Ideal.ieee, -EReal.coe_mul]; norm_num

theorem cEps_pos : ∃ e : ℝ, 0 < e ∧ cEps = (e : EReal) := by
  refine ⟨10995116 * (2 : ℝ) ^ (-40 : ℤ), by positivity, ?_⟩
  simp [cEps, Ideal.ofBits, Ideal.ieee, -EReal.coe_mul]

theorem cOne_eq : cOne = ((1 : ℝ) : EReal) := by
  simp [cOne, Ideal.ofBits, Ideal.ieee, -EReal.coe_mul]; norm_num

theorem IsReal.coe (a : ℝ) : IsReal (a : EReal) := ⟨a, rfl⟩

theorem IsReal.zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  obtain ⟨a, rfl⟩ := hx; obtain ⟨b, rfl⟩ := hy
  exact ⟨Max.max a b, (EReal.coe_strictMono.monotone.map_max).symm⟩

theorem IsReal.finset_sum {ι : Type*} (s : Finset ι) (f : ι → EReal) (hf : ∀ i ∈ s, IsReal (f i)) :
    IsReal (∑ i ∈ s, f i) := by
  classical
  induction s using Finset.induction_on with
  | empty => rw [Finset.sum_empty]; exact IsReal.zero
  | insert i s hi ih =>
    rw [Finset.sum_insert hi]
    exact (hf i (Finset.mem_insert_self i s)).add (ih fun j hj => hf j (Finset.mem_insert_of_mem hj))

theorem IsReal.sum {ι : Type*} [Fintype ι] (f : ι → EReal) (hf : ∀ i, IsReal (f i)) : IsReal (∑ i, f i) :=
  IsReal.finset_sum _ f fun i _ => hf i

theorem IsReal.ite_zero {p : Prop} [Decidable p] {x : EReal} (hx : IsReal x) : IsReal (if p then x else 0) := by
  split_ifs
  exacts [hx, IsReal.zero]

theorem IsReal.div_coe {x : EReal} {y : ℝ} (hx : IsReal x) (hy : y ≠ 0) : IsReal (Ideal.div x (y : EReal)) := by
  rw [Ideal.div_coe hy]; exact hx.mul (IsReal.coe _)

theorem IsReal.div {x y : EReal} (hx : IsReal x) (hy : IsReal y) (h0 : y ≠ 0) : IsReal (Ideal.div x y) := by
  obtain ⟨b, rfl⟩ := hy; exact hx.div_coe (EReal.coe_ne_zero.1 h0)

theorem IsReal.rsqrt_coe {a : ℝ} (ha : 0 < a) : IsReal (Ideal.rsqrt (a : EReal)) := by
  rw [Ideal.rsqrt_coe, if_neg (not_lt.2 ha.le), if_neg ha.ne']; exact IsReal.coe _

theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert i s hi ih => rw [Finset.sum_insert hi, Finset.sum_insert hi, EReal.coe_add, ih]

theorem real_var_identity (f : Fin 100000 → ℝ) :
    (∑ r, f r * f r) / 100000 - (∑ r, f r) / 100000 * ((∑ r, f r) / 100000) =
      (∑ r, (f r - (∑ r, f r) / 100000) * (f r - (∑ r, f r) / 100000)) / 100000 := by
  generalize hm : (∑ r, f r) / 100000 = m
  have hS : ∑ r, f r = 100000 * m := by rw [← hm]; ring
  have hexp : ∀ r, (f r - m) * (f r - m) = f r * f r - 2 * m * f r + m * m := fun r => by ring
  simp only [hexp, Finset.sum_add_distrib, Finset.sum_sub_distrib, ← Finset.mul_sum, Finset.sum_const,
    Finset.card_univ, Fintype.card_fin, nsmul_eq_mul, hS]
  push_cast
  ring

theorem mean_coe (a : Fin 100000 → Fin 128 → ℝ) (c : Fin 128) :
    mean (fun r c => (a r c : EReal)) c = (((∑ r, a r c) / 100000 : ℝ) : EReal) := by
  simp only [mean, colSum]
  rw [cN_eq, Ideal.div_coe (by norm_num), ← coe_finset_sum, ← EReal.coe_mul]
  congr 1; ring

theorem varK_coe (a : Fin 100000 → Fin 128 → ℝ) (c : Fin 128) :
    varK (fun r c => (a r c : EReal)) c =
      (((∑ r, a r c * a r c) / 100000 - (∑ r, a r c) / 100000 * ((∑ r, a r c) / 100000) : ℝ) : EReal) := by
  simp only [varK, mean_coe, colSum, ← EReal.coe_mul]
  rw [cN_eq, Ideal.div_coe (by norm_num), ← coe_finset_sum, ← EReal.coe_mul, ← EReal.coe_sub]
  congr 1; ring

theorem varR_coe (a : Fin 100000 → Fin 128 → ℝ) (c : Fin 128) :
    varR (fun r c => (a r c : EReal)) c =
      (((∑ r, (a r c - (∑ r, a r c) / 100000) * (a r c - (∑ r, a r c) / 100000)) / 100000 : ℝ) : EReal) := by
  simp only [varR, mean_coe, colSum, ← EReal.coe_sub, ← EReal.coe_mul]
  rw [cN_eq, Ideal.div_coe (by norm_num), ← coe_finset_sum, ← EReal.coe_mul]
  congr 1; ring

theorem varK_eq_varR (h : Rows 128) (hh : ∀ r c, IsReal (h r c)) : varK h = varR h := by
  choose a ha using hh
  obtain rfl : h = fun r c => (a r c : EReal) := funext fun r => funext fun c => ha r c
  funext c
  rw [varK_coe, varR_coe, real_var_identity]

theorem varR_nonneg (h : Rows 128) (hh : ∀ r c, IsReal (h r c)) (c : Fin 128) :
    ∃ v : ℝ, 0 ≤ v ∧ varR h c = (v : EReal) := by
  choose a ha using hh
  obtain rfl : h = fun r c => (a r c : EReal) := funext fun r => funext fun c => ha r c
  exact ⟨_, div_nonneg (Finset.sum_nonneg fun r _ => mul_self_nonneg _) (by norm_num), varR_coe a c⟩

theorem dense_isReal {k : ℕ} (x : Rows k) (W : Wgt k) (b : Vec128) (hx : ∀ r l, IsReal (x r l))
    (hW : ∀ c l, IsReal (W c l)) (hb : ∀ c, IsReal (b c)) : ∀ r c, IsReal (dense x W b r c) := by
  intro r c
  unfold dense
  exact (IsReal.sum _ fun l => (hx r l).mul (hW c l)).add (hb c)

theorem mean_isReal (h : Rows 128) (hh : ∀ r c, IsReal (h r c)) : ∀ c, IsReal (mean h c) := by
  intro c
  simp only [mean, colSum]
  rw [cN_eq]
  exact (IsReal.sum _ fun r => hh r c).div_coe (by norm_num)

theorem bn_isReal (h : Rows 128) (v g b : Vec128) (hh : ∀ r c, IsReal (h r c))
    (hv : ∀ c, ∃ a : ℝ, 0 ≤ a ∧ v c = (a : EReal)) (hg : ∀ c, IsReal (g c)) (hb : ∀ c, IsReal (b c)) :
    ∀ r c, IsReal (bn h v g b r c) := by
  intro r c
  obtain ⟨a, ha0, hva⟩ := hv c
  obtain ⟨e, he, hce⟩ := cEps_pos
  have hr : IsReal (Ideal.rsqrt (v c + cEps)) := by
    rw [hva, hce, ← EReal.coe_add]; exact IsReal.rsqrt_coe (add_pos_of_nonneg_of_pos ha0 he)
  unfold bn
  exact ((((hh r c).sub (mean_isReal h hh c)).mul hr).mul (hg c)).add (hb c)

theorem feat_isReal (x : Rows 48) (W1 : Wgt 48) (b1 g1 be1 : Vec128) (hx : ∀ r l, IsReal (x r l))
    (hW : ∀ c l, IsReal (W1 c l)) (hb : ∀ c, IsReal (b1 c)) (hg : ∀ c, IsReal (g1 c)) (hbe : ∀ c, IsReal (be1 c)) :
    ∀ r c, IsReal (feat varR x W1 b1 g1 be1 r c) := by
  intro r c
  have hd := dense_isReal x W1 b1 hx hW hb
  unfold feat
  exact (bn_isReal _ _ _ _ hd (varR_nonneg _ hd) hg hbe r c).max IsReal.zero

theorem agg_isReal (f : Rows 128) (hf : ∀ r c, IsReal (f r c)) (widx dst : Fin 1600000 → BitVec 32) :
    ∀ r c, IsReal (agg f widx dst r c) := by
  intro r c
  have hone : IsReal cOne := ⟨1, cOne_eq⟩
  have hs : IsReal (summed f widx dst r c) := by
    unfold summed; exact IsReal.zero.add (IsReal.sum _ fun n => (hf _ c).ite_zero)
  have hc : IsReal (cnt dst r) := by
    unfold cnt; exact IsReal.zero.add (IsReal.sum _ fun n => hone.ite_zero)
  have hpos : (0 : EReal) < Max.max (cnt dst r) cOne :=
    lt_of_lt_of_le (by rw [cOne_eq]; exact EReal.coe_pos.2 one_pos) (le_max_right _ _)
  unfold agg
  exact hs.div (hc.max hone) hpos.ne'

theorem sage_isReal (a f : Rows 128) (Wl : Wgt 128) (bl : Vec128) (Wr : Wgt 128) (ha : ∀ r c, IsReal (a r c))
    (hf : ∀ r c, IsReal (f r c)) (hWl : ∀ c l, IsReal (Wl c l)) (hbl : ∀ c, IsReal (bl c))
    (hWr : ∀ c l, IsReal (Wr c l)) : ∀ r c, IsReal (sage a f Wl bl Wr r c) := by
  intro r c
  unfold sage
  exact ((IsReal.sum _ fun l => (ha r l).mul (hWl c l)).add (hbl c)).add
    (IsReal.sum _ fun l => (hf r l).mul (hWr c l))

theorem feat_K_eq_R (x : Rows 48) (W1 : Wgt 48) (b1 g1 be1 : Vec128) (hx : ∀ r l, IsReal (x r l))
    (hW : ∀ c l, IsReal (W1 c l)) (hb : ∀ c, IsReal (b1 c)) :
    feat varK x W1 b1 g1 be1 = feat varR x W1 b1 g1 be1 := by
  unfold feat
  rw [varK_eq_varR _ (dense_isReal x W1 b1 hx hW hb)]

theorem out_K_eq_R (f : Rows 128) (widx dst : Fin 1600000 → BitVec 32) (Wl : Wgt 128) (bl : Vec128) (Wr : Wgt 128)
    (g2 be2 : Vec128) (hf : ∀ r c, IsReal (f r c)) (hWl : ∀ c l, IsReal (Wl c l)) (hbl : ∀ c, IsReal (bl c))
    (hWr : ∀ c l, IsReal (Wr c l)) :
    out varK f widx dst Wl bl Wr g2 be2 = out varR f widx dst Wl bl Wr g2 be2 := by
  unfold out
  rw [varK_eq_varR _ (sage_isReal _ f Wl bl Wr (agg_isReal f hf widx dst) hf hWl hbl hWr)]

end Cert.Spec

end
-- ==== Proof.PreFacts.lean ====
import proofs.«427484_j7000796693090_1_alg».proof.Pre_finite_inputs
import proofs.«427484_j7000796693090_1_alg».proof.Proof.Gen.Pre_finite_inputs
import proofs.«427484_j7000796693090_1_alg».proof.Proof.Spec
import Idealize.ShloMosaic.Lib.ReduceAll
import Idealize.ShloMosaic.Lib.ValueIdx

noncomputable section

namespace Cert.PreFacts

open Idealize.ShloMosaic ValueIdx
open Cert.Pre_finite_inputs

attribute [local instance] Cert.Pre_finite_inputs.Gen.facts

instance : Subsingleton S_.Idx := ⟨fun a b => funext fun d => d.elim0⟩

theorem ofBits_inf : Ideal.ofBits .f32 0x7F800000#32 = (⊤ : EReal) := by
  simp [Ideal.ofBits, Ideal.ieee]

theorem isReal_of_abs_lt_top (x : EReal) (h : max x (-x) < ⊤) : Cert.Spec.IsReal x := by
  induction x using EReal.rec with
  | bot => rw [EReal.neg_bot, max_eq_right bot_le] at h; exact absurd h (lt_irrefl _)
  | coe a => exact ⟨a, rfl⟩
  | top => rw [EReal.neg_top, max_eq_left bot_le] at h; exact absurd h (lt_irrefl _)

theorem all_real {s : Shape} {axes : List (Fin s.rank)} (hb : S_.BroadcastsInDim s (![] : Fin 0 → Fin s.rank))
    (hr : s.ReducesTo axes S_) (h0 : 0 < S_.numel) (v : FVec Ideal s .f32)
    (e : Host.reduce IntOp.andi (cmpf .olt (Host.absf v) (broadcastInDim s ![] hb (constant (F := Ideal) S_ .f32 0x7F800000#32)))
      (constantI S_ 1 1#1) hr h0 ix0 = 1#1) (i : s.Idx) : Cert.Spec.IsReal (v i) := by
  have hi := Host.reduce_andi_all _ _ hr h0 ix0 e i
  have hi' : BitVec.ofBool (decide (max (v i) (-(v i)) < Ideal.ofBits .f32 0x7F800000#32)) = 1#1 := hi
  rw [ofBits_inf] at hi'
  refine isReal_of_abs_lt_top _ ?_
  cases hd : decide (max (v i) (-(v i)) < ⊤) with
  | true => exact of_decide_eq_true hd
  | false => rw [hd] at hi'; exact absurd hi' (by decide)

theorem row0_apply (hs : S2x1600000.Slices ![0, 0] S1x1600000) (a1 : IVec S2x1600000 32) (n : Fin 1600000) :
    extractStridedSlice S1x1600000 ![0, 0] a1 hs (ix2 (0 : Fin 1) n) = a1 (ix2 (0 : Fin 2) n) := by
  unfold extractStridedSlice
  congr 1
  funext a
  match a with
  | ⟨0, _⟩ => rfl
  | ⟨1, _⟩ => exact Fin.ext (Nat.zero_add _)

theorem toInt_lo : (4294867296#32 : BitVec 32).toInt = -100000 := by decide
theorem toInt_hi : (100000#32 : BitVec 32).toInt = 100000 := by decide

theorem ofBool_eq_one (b : Bool) : BitVec.ofBool b = 1#1 ↔ b = true := by cases b <;> decide

theorem all_ge (hs : S2x1600000.Slices ![0, 0] S1x1600000) (hb : S_.BroadcastsInDim S1x1600000 (![] : Fin 0 → Fin S1x1600000.rank))
    (hr : S1x1600000.ReducesTo [0, 1] S_) (h0 : 0 < S_.numel) (a1 : IVec S2x1600000 32)
    (e : Host.reduce IntOp.andi (cmpi .sge (extractStridedSlice S1x1600000 ![0, 0] a1 hs)
        (broadcastInDim S1x1600000 ![] hb (constantI S_ 32 4294867296#32))) (constantI S_ 1 1#1) hr h0 ix0 = 1#1)
    (n : Fin 1600000) : -100000 ≤ (a1 (ix2 (0 : Fin 2) n)).toInt := by
  have hi := Host.reduce_andi_all _ _ hr h0 ix0 e (ix2 (0 : Fin 1) n)
  have hi' : BitVec.ofBool ((4294867296#32 : BitVec 32).sle (extractStridedSlice S1x1600000 ![0, 0] a1 hs (ix2 (0 : Fin 1) n))) = 1#1 := hi
  rw [row0_apply, ofBool_eq_one] at hi'
  have := of_decide_eq_true hi'
  rw [toInt_lo] at this
  exact this

theorem all_lt (hs : S2x1600000.Slices ![0, 0] S1x1600000) (hb : S_.BroadcastsInDim S1x1600000 (![] : Fin 0 → Fin S1x1600000.rank))
    (hr : S1x1600000.ReducesTo [0, 1] S_) (h0 : 0 < S_.numel) (a1 : IVec S2x1600000 32)
    (e : Host.reduce IntOp.andi (cmpi .slt (extractStridedSlice S1x1600000 ![0, 0] a1 hs)
        (broadcastInDim S1x1600000 ![] hb (constantI S_ 32 100000#32))) (constantI S_ 1 1#1) hr h0 ix0 = 1#1)
    (n : Fin 1600000) : (a1 (ix2 (0 : Fin 2) n)).toInt < 100000 := by
  have hi := Host.reduce_andi_all _ _ hr h0 ix0 e (ix2 (0 : Fin 1) n)
  have hi' : BitVec.ofBool ((extractStridedSlice S1x1600000 ![0, 0] a1 hs (ix2 (0 : Fin 1) n)).slt (100000#32 : BitVec 32)) = 1#1 := hi
  rw [row0_apply, ofBool_eq_one] at hi'
  have := of_decide_eq_true hi'
  rw [toInt_hi] at this
  exact this

theorem decode (a0 : FVec Ideal S100000x48 .f32) (a1 : IVec S2x1600000 32) (a2 : FVec Ideal S128x48 .f32)
    (a3 a4 a5 : FVec Ideal S128 .f32) (a6 : FVec Ideal S128x128 .f32) (a7 : FVec Ideal S128 .f32)
    (a8 : FVec Ideal S128x128 .f32) (a9 a10 : FVec Ideal S128 .f32)
    (h : Cert.Pre_finite_inputs.fn (F := Ideal) a0 a1 a2 a3 a4 a5 a6 a7 a8 a9 a10 = (fun _ => 1#1)) :
    (∀ (r : Fin 100000) (l : Fin 48), Cert.Spec.IsReal (a0 (ix2 r l)))
    ∧ (∀ (c : Fin 128) (l : Fin 48), Cert.Spec.IsReal (a2 (ix2 c l)))
    ∧ (∀ c : Fin 128, Cert.Spec.IsReal (a3 (ix1 c)))
    ∧ (∀ c : Fin 128, Cert.Spec.IsReal (a4 (ix1 c)))
    ∧ (∀ c : Fin 128, Cert.Spec.IsReal (a5 (ix1 c)))
    ∧ (∀ (c : Fin 128) (l : Fin 128), Cert.Spec.IsReal (a6 (ix2 c l)))
    ∧ (∀ c : Fin 128, Cert.Spec.IsReal (a7 (ix1 c)))
    ∧ (∀ (c : Fin 128) (l : Fin 128), Cert.Spec.IsReal (a8 (ix2 c l)))
    ∧ (∀ c : Fin 128, Cert.Spec.IsReal (a9 (ix1 c)))
    ∧ (∀ c : Fin 128, Cert.Spec.IsReal (a10 (ix1 c)))
    ∧ (∀ n : Fin 1600000, -100000 ≤ (a1 (ix2 (0 : Fin 2) n)).toInt ∧ (a1 (ix2 (0 : Fin 2) n)).toInt < 100000) := by
  have e := congrFun h ix0
  dsimp only [fn, fn_part1, fn_part2, fn_part3, andi] at e
  simp only [IntOp.andi_eq_one] at e
  obtain ⟨⟨⟨⟨⟨⟨⟨⟨⟨⟨⟨e0, e2⟩, e3⟩, e4⟩, e5⟩, e6⟩, e7⟩, e8⟩, e9⟩, e10⟩, elo⟩, ehi⟩ := e
  exact ⟨fun r l => all_real _ _ _ a0 e0 (ix2 r l), fun c l => all_real _ _ _ a2 e2 (ix2 c l),
    fun c => all_real _ _ _ a3 e3 (ix1 c), fun c => all_real _ _ _ a4 e4 (ix1 c), fun c => all_real _ _ _ a5 e5 (ix1 c),
    fun c l => all_real _ _ _ a6 e6 (ix2 c l), fun c => all_real _ _ _ a7 e7 (ix1 c), fun c l => all_real _ _ _ a8 e8 (ix2 c l),
    fun c => all_real _ _ _ a9 e9 (ix1 c), fun c => all_real _ _ _ a10 e10 (ix1 c),
    fun n => ⟨all_ge _ _ _ _ a1 elo n, all_lt _ _ _ _ a1 ehi n⟩⟩

end Cert.PreFacts

end
-- ==== Proof.KnReg0.lean ====
import proofs.«427484_j7000796693090_1_alg».proof.Proof.Gen.Kernel.Launch
import proofs.«427484_j7000796693090_1_alg».proof.Proof.Gen.Kernel.Skeleton
import proofs.«427484_j7000796693090_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def hblk0 (c : Dev nD) (t : Fin cfg0.N) : Vec F S2000x128 .f32 :=
  k0_pay3 (iblk0 V c 0 t) (iblk0 V c 1 t) (iblk0 V c 2 t)

def acc0 (c : Dev nD) : (n : ℕ) → n < cfg0.N → Vec F S1x128 .f32 × Vec F S1x128 .f32
  | 0, h0 => (k0_pay4 (iblk0 V c 0 ⟨0, h0⟩) (iblk0 V c 1 ⟨0, h0⟩) (iblk0 V c 2 ⟨0, h0⟩) (k0_pay1 (F := F)),
      k0_pay5 (iblk0 V c 0 ⟨0, h0⟩) (iblk0 V c 1 ⟨0, h0⟩) (iblk0 V c 2 ⟨0, h0⟩) (k0_pay2 (F := F)))
  | n + 1, hn => (k0_pay4 (iblk0 V c 0 ⟨n + 1, hn⟩) (iblk0 V c 1 ⟨n + 1, hn⟩) (iblk0 V c 2 ⟨n + 1, hn⟩) (acc0 c n (Nat.lt_of_succ_lt hn)).1,
      k0_pay5 (iblk0 V c 0 ⟨n + 1, hn⟩) (iblk0 V c 1 ⟨n + 1, hn⟩) (iblk0 V c 2 ⟨n + 1, hn⟩) (acc0 c n (Nat.lt_of_succ_lt hn)).2)

theorem acc0_zero (c : Dev nD) (h0 : 0 < cfg0.N) :
    acc0 V c 0 h0 = (k0_pay4 (iblk0 V c 0 ⟨0, h0⟩) (iblk0 V c 1 ⟨0, h0⟩) (iblk0 V c 2 ⟨0, h0⟩) (k0_pay1 (F := F)),
      k0_pay5 (iblk0 V c 0 ⟨0, h0⟩) (iblk0 V c 1 ⟨0, h0⟩) (iblk0 V c 2 ⟨0, h0⟩) (k0_pay2 (F := F))) := rfl

theorem acc0_succ (c : Dev nD) (n : ℕ) (hn : n + 1 < cfg0.N) :
    acc0 V c (n + 1) hn = (k0_pay4 (iblk0 V c 0 ⟨n + 1, hn⟩) (iblk0 V c 1 ⟨n + 1, hn⟩) (iblk0 V c 2 ⟨n + 1, hn⟩) (acc0 V c n (Nat.lt_of_succ_lt hn)).1,
      k0_pay5 (iblk0 V c 0 ⟨n + 1, hn⟩) (iblk0 V c 1 ⟨n + 1, hn⟩) (iblk0 V c 2 ⟨n + 1, hn⟩) (acc0 V c n (Nat.lt_of_succ_lt hn)).2) := rfl

abbrev scSum0 : Memref sig .tc .vmem S1x128 .f32 := Memref.whole cc0_scratch0
abbrev scSq0 : Memref sig .tc .vmem S1x128 .f32 := Memref.whole cc0_scratch1

abbrev restBut0 (c : Dev nD) : sProp 𝕄 :=
  Pipeline.scopedRestBut (Ix := Unit) (Name := ℕ) (U := UR sig nD τ) (Lvl := ℕ) (Val := Elt F) spec0 c [cc0_scratch0, cc0_scratch1]

theorem PhiA0_eq (c : Dev nD) :
    (Pipeline.ΦA spec0 c : sProp 𝕄)
      = iprop(iprop(iprop((∃ d, owns (c : Thread nD τ) scSum0 fullShare d) ∗ (∃ d, owns (c : Thread nD τ) scSq0 fullShare d)) ∗ restBut0 c) ∗ (∃ r, prngReg c r)) := by
  unfold Pipeline.ΦA; rw [scopedRest0_split]; simp only [scSum0, scSq0, owns_whole]; try rfl

-- Before point `n` the two scratch rows hold what point `n - 1` left; before the first point, anything.
def Phi0 (c : Dev nD) (n : ℕ) : sProp 𝕄 :=
  iprop(∃ s : Vec F S1x128 .f32 × Vec F S1x128 .f32, ⌜∀ m hm, m + 1 = n → s = acc0 V c m hm⌝
    ∗ owns (c : Thread nD τ) scSum0 fullShare s.1 ∗ owns (c : Thread nD τ) scSq0 fullShare s.2 ∗ restBut0 c ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => hblk0 V c t
    | ⟨4, _⟩ => (acc0 V c t.val t.isLt).1
    | ⟨5, _⟩ => (acc0 V c t.val t.isLt).2
  Φ t := Phi0 V c t.val
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) : (dat0 V c).after 3 t = hblk0 V c t := by dsimp only [dat0]
theorem after0_4 (c : Dev nD) (t : Fin cfg0.N) : (dat0 V c).after 4 t = (acc0 V c t.val t.isLt).1 := by dsimp only [dat0]
theorem after0_5 (c : Dev nD) (t : Fin cfg0.N) : (dat0 V c).after 5 t = (acc0 V c t.val t.isLt).2 := by dsimp only [dat0]

theorem before0_in (c : Dev nD) (t : Fin cfg0.N) : (∀ d, (dat0 V c).before 0 t d = iblk0 V c 0 t) ∧ (∀ d, (dat0 V c).before 1 t d = iblk0 V c 1 t)
    ∧ (∀ d, (dat0 V c).before 2 t d = iblk0 V c 2 t) := by
  refine ⟨?_, ?_, ?_⟩ <;> exact fun d => ((dat0 V c).before_in_eq_fetched _ rfl (fun _ => rfl) (fun _ _ _ => rfl) (fun _ => rfl) t d).trans rfl

theorem hin0 (c : Dev nD) : (Pipeline.ΦA spec0 c : sProp 𝕄) ⊢ (dat0 V c).Φ 0 := by
  rw [PhiA0_eq, show (dat0 V c).Φ 0 = Phi0 V c 0 from rfl]; unfold Phi0
  iintro ⟨⟨⟨⟨%e7, H7⟩, ⟨%e8, H8⟩⟩, Hr⟩, Hg⟩
  iexists (e7, e8); iframe H7 H8 Hr Hg
  ipureintro; exact fun m _ e => absurd e (Nat.succ_ne_zero m)

theorem hout0 (c : Dev nD) : (dat0 V c).Φ (Fin.last cfg0.N) ⊢ (Pipeline.ΦA spec0 c : sProp 𝕄) := by
  rw [PhiA0_eq, show (dat0 V c).Φ (Fin.last cfg0.N) = Phi0 V c cfg0.N from rfl]; unfold Phi0
  iintro ⟨%s, -, H7, H8, Hr, Hg⟩
  iframe Hr Hg
  isplitl [H7] <;> iexists _ <;> iassumption

theorem cond0 : ∀ t : Fin grid0.N,
    ((Scalar.cmpi .ne (Scalar.extui (Scalar.cmpi .eq (BitVec.ofNat 32 (grid0.coords t 0).val) 0#32)) 0#32) = 1#1 ↔ t.val = 0)
      ∧ (k0_cond2 (grid0.coords t) = 1#1 ↔ t.val = 49) := by decide +kernel

theorem hz0 : (![0, 0] : Fin 2 → Nat) = fun _ => 0 := funext fun a => by fin_cases a <;> rfl

section
variable {κ : Kind} {sp : Space} {sz : Fin 2 → ℕ} (v : View sig κ sp ⟨2, sz⟩ .f32) (f : v.ty.Contents (Elt F))
  (inb : ∀ a, (![0, 0] : Fin 2 → ℕ) a + sz a ≤ (⟨2, sz⟩ : Shape).size a) (p : Vec F ⟨2, sz⟩ .f32)

-- A store through the whole rectangle, made last, leaves its payload;
theorem stored0 (L : List (View.Piece (Elt F) ⟨2, sz⟩ .f32)) : v.read (Elt F) (v.writes (Elt F) f (⟨Rect.unit ![0, 0] sz inb, p⟩ :: L)) = p := by
  rw [View.read_writes_eq_canon _ _ _ (fun y => ⟨_, List.mem_cons_self, View.mem_set_unit_zero hz0 inb y⟩), View.canon_cons_unit_zero hz0]

-- a load through it reads the contents,
theorem loaded0 : v.readAt (Elt F) (Rect.unit ![0, 0] sz inb).toLoadRect f = v.read (Elt F) f := View.ld_unit_zero hz0 _ _

-- and after one store through it, that store's payload.
theorem reloaded0 : v.readCov [(⟨Rect.unit ![0, 0] sz inb, p⟩ : View.Piece (Elt F) ⟨2, sz⟩ .f32)] (Rect.unit ![0, 0] sz inb).toLoadRect = p :=
  View.readCov_unit_zero v hz0 _ p
end

section
variable (arg1 : Memref sig .tc .vmem S2000x48 .f32) (harg1 : arg1.IsWhole) (arg2 : Memref sig .tc .vmem S128x48 .f32) (harg2 : arg2.IsWhole)
  (arg3 : Memref sig .tc .vmem S1x128 .f32) (harg3 : arg3.IsWhole) (arg4 : Memref sig .tc .vmem S2000x128 .f32) (harg4 : arg4.IsWhole)
  (arg5 : Memref sig .tc .vmem S1x128 .f32) (harg5 : arg5.IsWhole) (arg6 : Memref sig .tc .vmem S1x128 .f32) (harg6 : arg6.IsWhole)
  (arg7 : Memref sig .tc .vmem S1x128 .f32) (harg7 : arg7.IsWhole) (arg8 : Memref sig .tc .vmem S1x128 .f32) (harg8 : arg8.IsWhole)

def held0 (c : Dev nD) (x0 : Vec F S2000x48 .f32) (x1 : Vec F S128x48 .f32) (x2 : Vec F S1x128 .f32) (x3 : Vec F S2000x128 .f32)
    (x4 x5 x6 x7 : Vec F S1x128 .f32) : sProp 𝕄 :=
  iprop(owns (c : Thread nD τ) arg1 fullShare x0 ∗ owns (c : Thread nD τ) arg2 fullShare x1 ∗ owns (c : Thread nD τ) arg3 fullShare x2
    ∗ owns (c : Thread nD τ) arg4 fullShare x3 ∗ owns (c : Thread nD τ) arg5 fullShare x4 ∗ owns (c : Thread nD τ) arg6 fullShare x5
    ∗ owns (c : Thread nD τ) arg7 fullShare x6 ∗ owns (c : Thread nD τ) arg8 fullShare x7)

-- The body at point `t`: the two scratch rows, zeroed first at point 0, end at `a`; at point 49 the two output rows receive `a`.
theorem sound_kernel0 (c : Dev nD) (E : Set ℕ) (t : Fin cfg0.N) (x0 x1 x2 d3 y4 y5 s7 s8 a)
    (ha : a = (k0_pay4 x0 x1 x2 (if t.val = 0 then k0_pay1 else s7), k0_pay5 x0 x1 x2 (if t.val = 0 then k0_pay2 else s8)))
    (K : PUnit → sProp 𝕄) :
    iprop(held0 arg1 arg2 arg3 arg4 arg5 arg6 arg7 arg8 c x0 x1 x2 d3 y4 y5 s7 s8
        ∗ (held0 arg1 arg2 arg3 arg4 arg5 arg6 arg7 arg8 c x0 x1 x2 (k0_pay3 x0 x1 x2)
            (if t.val = 49 then a.1 else y4) (if t.val = 49 then a.2 else y5) a.1 a.2 -∗ K ⟨⟩))
      ⊢ wp frame (wpE (defs₀ (F := F)) Variants.none c none) E (cc0__proj_reduce_kernel (grid0.coords t) arg1 harg1 arg2 harg2 arg3 harg3 arg4 harg4 arg5 harg5 arg6 harg6 arg7 harg7 arg8 harg8) K := by
  subst ha
  have c0 := cond0 t
  by_cases h0 : t.val = 0 <;> by_cases h9 : t.val = 49 <;> simp (disch := assumption) only [if_pos, if_neg]
  · omega
  all_goals
    simp only [cc0__proj_reduce_kernel_eq_skeleton]; unfold cc0__proj_reduce_kernel_skel
    simp only [k0_part1_eq_skeleton]; unfold k0_part1_skel
    rw [held0]; unfold owns
    iintro ⟨⟨⟨%f0, %hf0, H0⟩, ⟨%f1, %hf1, H1⟩, ⟨%f2, %hf2, H2⟩, ⟨%f3, -, H3⟩, ⟨%f4, %hf4, H4⟩, ⟨%f5, %hf5, H5⟩, ⟨%f6, %hf6, H6⟩, ⟨%f7, %hf7, H7⟩⟩, Hk⟩
    subst hf0 hf1 hf2 hf4 hf5 hf6 hf7
    sl_exec (disch := first | exact c0.1.mpr h0 | exact c0.1.not.mpr h0 | exact c0.2.mpr h9 | exact c0.2.not.mpr h9)
    sl_step
    iapply Hk
    rw [held0]
    ihave H0 := owns_intro _ _ _ _ $$ H0
    ihave H1 := owns_intro _ _ _ _ $$ H1
    ihave H2 := owns_intro _ _ _ _ $$ H2
    ihave H3 := owns_intro _ _ _ _ $$ H3
    ihave H4 := owns_intro _ _ _ _ $$ H4
    ihave H5 := owns_intro _ _ _ _ $$ H5
    ihave H6 := owns_intro _ _ _ _ $$ H6
    ihave H7 := owns_intro _ _ _ _ $$ H7
    sl_unfold_run_names
    simp only [stored0, reloaded0, loaded0]
    iframe
end

theorem last0 : ∀ t : Fin cfg0.N, ∀ w : Fin cfg0.W, 4 ≤ w.val → (t.val = 49 → cfg0.idle w (grid0.coords t) = false)
    ∧ (t.val ≠ 49 → cfg0.idle w (grid0.coords t) = true ∧ (cfg0.win w).flush t = false) := by decide +kernel

-- At the last point an output row holds its sum; at every other point what it held.
theorem leaves0 (c : Dev nD) (t : Fin cfg0.N) (w : Fin cfg0.W) (hw : 4 ≤ w.val) (d) :
    owns (c : Thread nD τ) ((cfg0.win w).stage (cfg0.slots t w)) fullShare (if t.val = 49 then (dat0 V c).after w t else (dat0 V c).before w t d)
      ⊢ (dat0 V c).leavesExact w t := by
  obtain ⟨hl, hi⟩ := last0 t w hw
  by_cases h : t.val = 49
  · rw [if_pos h]; unfold Dat.leavesExact; rw [hl h]
  · rw [if_neg h, Dat.leavesExact_idle _ w t (hi h).1 (hi h).2]
    iintro H; iexists _; iexact H

-- The rows after point `t`, from what they held before it.
theorem acc0_step (c : Dev nD) (t : Fin cfg0.N) (s : Vec F S1x128 .f32 × Vec F S1x128 .f32) (hs : ∀ m hm, m + 1 = t.val → s = acc0 V c m hm) :
    acc0 V c t.val t.isLt = (k0_pay4 (iblk0 V c 0 t) (iblk0 V c 1 t) (iblk0 V c 2 t) (if t.val = 0 then k0_pay1 else s.1),
      k0_pay5 (iblk0 V c 0 t) (iblk0 V c 1 t) (iblk0 V c 2 t) (if t.val = 0 then k0_pay2 else s.2)) := by
  obtain ⟨_ | n, hn⟩ := t
  · rfl
  · rw [hs n (Nat.lt_of_succ_lt hn) rfl]; rfl

theorem body_obligation0 (c : Dev nD) : BodyObligation (dat0 (F := F) V c) (defs₀ (F := F)) Variants.none () Set.univ := fun t => by
  rw [bigSep_W0, bigSep_W0]
  simp only [before0_in V c t]
  dsimp only [dat0]; unfold Phi0 hblk0
  iintro ⟨⟨%s, %hs, HS0, HS1, Hrest, Hg⟩, Ho, ⟨%d0, H0⟩, ⟨%d1, H1⟩, ⟨%d2, H2⟩, ⟨%d3, H3⟩, ⟨%d4, H4⟩, ⟨%d5, H5⟩⟩
  iapply sound_kernel0 _ _ _ _ _ _ _ _ _ _ _ _ _ _ _ _ c Set.univ t _ _ _ _ _ _ _ _ _ (acc0_step V c t s hs)
  unfold held0
  iframe H0 H1 H2 H3 H4 H5 HS0 HS1
  iintro ⟨H0, H1, H2, H3, H4, H5, HS0, HS1⟩
  isplitl [HS0 HS1 Hrest Hg]
  · iexists _; iframe HS0 HS1 Hrest Hg
    ipureintro; exact fun m hm e => by obtain rfl : m = t.val := Nat.succ.inj e; rfl
  isplitl [Ho]; · iexact Ho
  iframe H0 H1 H2 H3
  isplitl [H4]
  · iapply leaves0 V c t 4 (by decide) d4; iexact H4
  iapply leaves0 V c t 5 (by decide) d5; iexact H5

end Cert.Kernel.Hand

end
-- ==== Proof.KnReg2.lean ====
import proofs.«427484_j7000796693090_1_alg».proof.Proof.Gen.Kernel.Launch
import proofs.«427484_j7000796693090_1_alg».proof.Proof.Gen.Kernel.Skeleton
import proofs.«427484_j7000796693090_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem hz2 : (![0, 0] : Fin 2 → Nat) = fun _ => 0 := funext fun a => by fin_cases a <;> rfl

theorem read_store_whole2 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

theorem readAt_whole2 {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

abbrev cond2_0 (i : grid2.Coords) : Prop := (Scalar.cmpi .ne (Scalar.extui (Scalar.cmpi .eq (BitVec.ofNat 32 (i 0).val) 0#32)) 0#32) = 1#1
abbrev cond2_1 (i : grid2.Coords) : Prop := k2_cond2 i = 1#1

set_option maxHeartbeats 500000 in
/-- The body's triple at any point, with both of its conditions left open. -/
theorem sound_kernel2 (c : Dev nD) (E : Set ℕ) (i : grid2.Coords)
    (arg1 arg2 arg6 : Memref sig .tc .vmem S2000x128 .f32) (arg3 arg4 : Memref sig .tc .vmem S128x128 .f32) (arg5 arg7 arg8 arg9 arg10 : Memref sig .tc .vmem S1x128 .f32)
    (harg1 : arg1.IsWhole) (harg2 : arg2.IsWhole) (harg3 : arg3.IsWhole) (harg4 : arg4.IsWhole) (harg5 : arg5.IsWhole)
    (harg6 : arg6.IsWhole) (harg7 : arg7.IsWhole) (harg8 : arg8.IsWhole) (harg9 : arg9.IsWhole) (harg10 : arg10.IsWhole)
    (x0 x1 d5 : Vec F S2000x128 .f32) (x2 x3 : Vec F S128x128 .f32) (x4 y6 y7 s0 s1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare d5
        ∗ owns (c : Thread nD τ) arg7 fullShare y6 ∗ owns (c : Thread nD τ) arg8 fullShare y7
        ∗ owns (c : Thread nD τ) arg9 fullShare s0 ∗ owns (c : Thread nD τ) arg10 fullShare s1
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (k2_pay4 x0 x1 x2 x3 x4)
            ∗ owns (c : Thread nD τ) arg7 fullShare (if cond2_1 i then k2_pay5 x0 x1 x2 x3 x4 (if cond2_0 i then k2_pay2 else s0) else y6)
            ∗ owns (c : Thread nD τ) arg8 fullShare (if cond2_1 i then k2_pay1 (k2_pay6 x0 x1 x2 x3 x4 (if cond2_0 i then k2_pay3 else s1)) else y7)
            ∗ owns (c : Thread nD τ) arg9 fullShare (k2_pay5 x0 x1 x2 x3 x4 (if cond2_0 i then k2_pay2 else s0))
            ∗ owns (c : Thread nD τ) arg10 fullShare (k2_pay1 (k2_pay6 x0 x1 x2 x3 x4 (if cond2_0 i then k2_pay3 else s1)))) -∗ K ⟨⟩))
      ⊢ wp frame (wpE (defs₀ (F := F)) Variants.none c none) E (cc2__sage_reduce_kernel i arg1 harg1 arg2 harg2 arg3 harg3 arg4 harg4 arg5 harg5 arg6 harg6 arg7 harg7 arg8 harg8 arg9 harg9 arg10 harg10) K := by
  split_ifs with h h'
  all_goals
    simp only [cc2__sage_reduce_kernel_eq_skeleton]; unfold cc2__sage_reduce_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, -, H5⟩, ⟨%f6, %hf6, H6⟩, ⟨%f7, %hf7, H7⟩, ⟨%f8, %hf8, H8⟩, ⟨%f9, %hf9, H9⟩, Hk⟩
    subst hf0 hf1 hf2 hf3 hf4 hf6 hf7 hf8 hf9
    sl_exec (disch := first | exact h | exact h')
    sl_step
    iapply Hk
    isplitl [H0]; rotate_left; isplitl [H1]; rotate_left; isplitl [H2]; rotate_left; isplitl [H3]; rotate_left; isplitl [H4]; rotate_left
    isplitl [H5]; rotate_left; isplitl [H6]; rotate_left; isplitl [H7]; rotate_left; isplitl [H8]; rotate_left
    all_goals
      iexists _; isplitr; swap; · iassumption
      ipureintro
      first
        | exact (read_store_whole2 _ _ hz2 _ _ _).trans (by sl_unfold_words; simp only [readAt_whole2 (S := S2000x128) _ _ hz2, readAt_whole2 (S := S128x128) _ _ hz2, readAt_whole2 (S := S1x128) _ _ hz2, View.readCov_cons_toLoadRect])
        | rfl

theorem hcond2_0 : ∀ t : Fin cfg2.N, cond2_0 (grid2.coords t) ↔ t.val = 0 := by decide +kernel

theorem idle2 : ∀ (t : Fin cfg2.N) (w : Fin cfg2.W), w = 6 ∨ w = 7 →
    (cond2_1 (grid2.coords t) ∧ cfg2.idle w (grid2.coords t) = false)
      ∨ (¬cond2_1 (grid2.coords t) ∧ cfg2.idle w (grid2.coords t) = true ∧ (cfg2.win w).flush t = false) := by decide +kernel

def sblk2 (c : Dev nD) (t : Fin cfg2.N) : Vec F S2000x128 .f32 :=
  k2_pay4 (iblk2 V c 0 t) (iblk2 V c 1 t) (iblk2 V c 2 t) (iblk2 V c 3 t) (iblk2 V c 4 t)

/-- The two rows with one more block added: its column sums to the first, those of its squares to the second. -/
def rows2 (c : Dev nD) (t : Fin cfg2.N) (s : Vec F S1x128 .f32 × Vec F S1x128 .f32) : Vec F S1x128 .f32 × Vec F S1x128 .f32 :=
  (k2_pay5 (iblk2 V c 0 t) (iblk2 V c 1 t) (iblk2 V c 2 t) (iblk2 V c 3 t) (iblk2 V c 4 t) s.1,
    k2_pay1 (k2_pay6 (iblk2 V c 0 t) (iblk2 V c 1 t) (iblk2 V c 2 t) (iblk2 V c 3 t) (iblk2 V c 4 t) s.2))

def acc2 (c : Dev nD) : (n : ℕ) → n < cfg2.N → Vec F S1x128 .f32 × Vec F S1x128 .f32
  | 0, h => rows2 V c ⟨0, h⟩ (k2_pay2, k2_pay3)
  | n + 1, h => rows2 V c ⟨n + 1, h⟩ (acc2 c n (Nat.lt_of_succ_lt h))

theorem acc2_zero (c : Dev nD) (h0 : 0 < cfg2.N) : acc2 V c 0 h0
    = (k2_pay5 (iblk2 V c 0 ⟨0, h0⟩) (iblk2 V c 1 ⟨0, h0⟩) (iblk2 V c 2 ⟨0, h0⟩) (iblk2 V c 3 ⟨0, h0⟩) (iblk2 V c 4 ⟨0, h0⟩) (k2_pay2 (F := F)),
      k2_pay1 (k2_pay6 (iblk2 V c 0 ⟨0, h0⟩) (iblk2 V c 1 ⟨0, h0⟩) (iblk2 V c 2 ⟨0, h0⟩) (iblk2 V c 3 ⟨0, h0⟩) (iblk2 V c 4 ⟨0, h0⟩) (k2_pay3 (F := F)))) := by
  rw [acc2]; rfl

theorem acc2_succ (c : Dev nD) (n : ℕ) (hn : n + 1 < cfg2.N) : acc2 V c (n + 1) hn
    = (k2_pay5 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (acc2 V c n (Nat.lt_of_succ_lt hn)).1,
      k2_pay1 (k2_pay6 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (acc2 V c n (Nat.lt_of_succ_lt hn)).2)) := by
  rw [acc2]; rfl

abbrev scM2_0 : Memref sig .tc .vmem S1x128 .f32 := Memref.whole cc2_scratch0
abbrev scM2_1 : Memref sig .tc .vmem S1x128 .f32 := Memref.whole cc2_scratch1

abbrev rest2 (c : Dev nD) (P : sProp 𝕄) : sProp 𝕄 :=
  iprop(iprop(P ∗ Pipeline.scopedRestBut (Ix := Unit) (Name := ℕ) (U := UR sig nD τ) (Lvl := ℕ) (Val := Elt F) spec2 c [cc2_scratch0, cc2_scratch1]) ∗ (∃ r, prngReg c r))

theorem PhiA2_eq (c : Dev nD) : (Pipeline.ΦA spec2 c : sProp 𝕄)
    = rest2 c iprop((∃ d, owns (c : Thread nD τ) scM2_0 fullShare d) ∗ (∃ d, owns (c : Thread nD τ) scM2_1 fullShare d)) := by
  unfold Pipeline.ΦA; rw [scopedRest2_split]; simp only [scM2_0, scM2_1, owns_whole]; rfl

def Phi2 (c : Dev nD) : (n : ℕ) → n ≤ cfg2.N → sProp 𝕄
  | 0, _ => Pipeline.ΦA spec2 c
  | n + 1, hn => rest2 c iprop(owns (c : Thread nD τ) scM2_0 fullShare (acc2 V c n hn).1 ∗ owns (c : Thread nD τ) scM2_1 fullShare (acc2 V c n hn).2)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => sblk2 V c t
    | ⟨6, _⟩ => (acc2 V c t.val t.isLt).1
    | ⟨7, _⟩ => (acc2 V c t.val t.isLt).2
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_5 (c : Dev nD) (t : Fin cfg2.N) : (dat2 V c).after 5 t = sblk2 V c t := by dsimp only [dat2]
theorem after2_6 (c : Dev nD) (t : Fin cfg2.N) : (dat2 V c).after 6 t = (acc2 V c t.val t.isLt).1 := by dsimp only [dat2]
theorem after2_7 (c : Dev nD) (t : Fin cfg2.N) : (dat2 V c).after 7 t = (acc2 V c t.val t.isLt).2 := by dsimp only [dat2]

theorem before2_in (c : Dev nD) (t : Fin cfg2.N) : (∀ d, (dat2 V c).before 0 t d = iblk2 V c 0 t) ∧ (∀ d, (dat2 V c).before 1 t d = iblk2 V c 1 t)
    ∧ (∀ d, (dat2 V c).before 2 t d = iblk2 V c 2 t) ∧ (∀ d, (dat2 V c).before 3 t d = iblk2 V c 3 t) ∧ (∀ d, (dat2 V c).before 4 t d = iblk2 V c 4 t) := by
  refine ⟨?_, ?_, ?_, ?_, ?_⟩ <;> exact fun d => ((dat2 V c).before_in_eq_fetched _ rfl (fun _ => rfl) (fun _ _ _ => rfl) (fun _ => rfl) t d).trans rfl

/-- Before a point the two rows are owned at contents from which the body's step gives `acc2` there. -/
theorem Phi2_open (c : Dev nD) (t : Fin cfg2.N) : (dat2 V c).Φ t.castSucc ⊢ iprop(∃ s0 s1,
    ⌜acc2 V c t.val t.isLt = rows2 V c t (if cond2_0 (grid2.coords t) then k2_pay2 else s0, if cond2_0 (grid2.coords t) then k2_pay3 else s1)⌝
    ∗ rest2 c iprop(owns (c : Thread nD τ) scM2_0 fullShare s0 ∗ owns (c : Thread nD τ) scM2_1 fullShare s1)) := by
  obtain ⟨n, hn⟩ := t
  show Phi2 V c n _ ⊢ _
  cases n with
  | zero =>
    rw [Phi2, PhiA2_eq]; unfold rest2; iintro ⟨⟨⟨⟨%d0, H0⟩, ⟨%d1, H1⟩⟩, HR⟩, Hg⟩
    iexists d0, d1; iframe; ipureintro
    rw [acc2, if_pos ((hcond2_0 _).mpr rfl), if_pos ((hcond2_0 _).mpr rfl)]
  | succ n =>
    rw [Phi2]; iintro H; iexists _, _; isplitr; swap; · iexact H
    ipureintro
    rw [acc2, if_neg (mt (hcond2_0 _).mp (Nat.succ_ne_zero n)), if_neg (mt (hcond2_0 _).mp (Nat.succ_ne_zero n))]

theorem leaves2 (c : Dev nD) (t : Fin cfg2.N) (w : Fin cfg2.W) (hw : w = 6 ∨ w = 7) (d) :
    owns (c : Thread nD τ) ((cfg2.win w).stage (cfg2.slots t w)) fullShare
        (if cond2_1 (grid2.coords t) then (dat2 V c).after w t else (dat2 V c).before w t d)
      ⊢ (dat2 V c).leavesExact w t := by
  obtain ⟨h, hi⟩ | ⟨h, hi, hf⟩ := idle2 t w hw
  · unfold Dat.leavesExact; rw [if_pos h, hi]
  · rw [if_neg h, Dat.leavesExact_idle _ w t hi hf]; iintro H; iexists d; iexact H

theorem sound_body2 (c : Dev nD) (t : Fin cfg2.N) :
    (iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d))
      ∗ (∃ d, owns (c : Thread nD τ) (st2_3 t) fullShare ((dat2 V c).before 3 t d))
      ∗ (∃ d, owns (c : Thread nD τ) (st2_4 t) fullShare ((dat2 V c).before 4 t d))
      ∗ (∃ d, owns (c : Thread nD τ) (st2_5 t) fullShare ((dat2 V c).before 5 t d))
      ∗ (∃ d, owns (c : Thread nD τ) (st2_6 t) fullShare ((dat2 V c).before 6 t d))
      ∗ (∃ d, owns (c : Thread nD τ) (st2_7 t) fullShare ((dat2 V c).before 7 t d))) : sProp 𝕄)
      ⊢ wp frame (wpE (defs₀ (F := F)) Variants.none c none) Set.univ (bodyAt2 t) fun _ =>
      iprop((dat2 V c).Φ t.succ ∗ (dat2 V c).owesAt () t.succ
        ∗ owns (c : Thread nD τ) (st2_0 t) fullShare ((dat2 V c).after 0 t)
        ∗ owns (c : Thread nD τ) (st2_1 t) fullShare ((dat2 V c).after 1 t)
        ∗ owns (c : Thread nD τ) (st2_2 t) fullShare ((dat2 V c).after 2 t)
        ∗ owns (c : Thread nD τ) (st2_3 t) fullShare ((dat2 V c).after 3 t)
        ∗ owns (c : Thread nD τ) (st2_4 t) fullShare ((dat2 V c).after 4 t)
        ∗ owns (c : Thread nD τ) (st2_5 t) fullShare ((dat2 V c).after 5 t)
        ∗ (dat2 V c).leavesExact 6 t
        ∗ (dat2 V c).leavesExact 7 t) := by
  simp only [before2_in V c t]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  icases (Phi2_open V c t) $$ HΦ with ⟨%s0, %s1, %hs, ⟨⟨HS0, HS1⟩, HR⟩, Hg⟩
  iapply (sound_kernel2 c Set.univ)
  iframe H0 H1 H2 H3 H4 H5 H6 H7 HS0 HS1
  iintro ⟨H0, H1, H2, H3, H4, H5, H6, H7, HS0, HS1⟩
  isplitl [HS0 HS1 HR Hg]
  · rw [show (dat2 V c).Φ t.succ = Phi2 V c (t.val + 1) t.isLt from rfl, Phi2, hs]; unfold rest2 rows2; iframe
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply (leaves2 V c t 6 (.inl rfl) d6); rw [after2_6, hs]; iexact H6
  iapply (leaves2 V c t 7 (.inr rfl) d7); rw [after2_7, hs]; iexact H7

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := .rfl

theorem hout2 (c : Dev nD) : (dat2 V c).Φ (Fin.last cfg2.N) ⊢ (Pipeline.ΦA spec2 c : sProp 𝕄) := by
  rw [PhiA2_eq]; exact sep_mono_left (sep_mono_left (sep_mono (exists_intro _) (exists_intro _)))

end Cert.Kernel.Hand

end
-- ==== Proof.KnReg1.lean ====
import proofs.«427484_j7000796693090_1_alg».proof.Proof.Gen.Kernel.Launch
import proofs.«427484_j7000796693090_1_alg».proof.Proof.Gen.Kernel.Skeleton
import proofs.«427484_j7000796693090_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rBig1 : Rect S2000x128 := Rect.unit (s := S2000x128) ![0, 0] S2000x128.size inb_S2000x128_S2000x128_0_0
abbrev rRow1 : Rect S1x128 := Rect.unit (s := S1x128) ![0, 0] S1x128.size inb_S1x128_S1x128_0_0

def out1_5 (x0 : Vec F S2000x128 .f32) (x1 x2 x3 x4 : Vec F S1x128 .f32) : Vec F S2000x128 .f32 :=
  View.canon [⟨rBig1, k1_pay1 (View.ld x0 rBig1) (View.ld x1 rRow1) (View.ld x2 rRow1) (View.ld x3 rRow1) (View.ld x4 rRow1)⟩]

theorem cover1_5 (p0 : Vec F S2000x128 .f32) (y : S2000x128.Idx) :
    ∃ pc ∈ ([⟨rBig1, p0⟩] : List (View.Piece (Elt F) S2000x128 .f32)), y ∈ pc.1.set :=
  View.cover_of_tiled [⟨rBig1, p0⟩] S2000x128.size (by rfl) y

set_option maxHeartbeats 1000000 in
theorem sound_kernel1 (c : Dev nD) (E : Set ℕ) (i : grid1.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (x0 d : Vec F S2000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare d
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__normalize_relu_kernel i arg1 harg1 arg2 harg2 arg3 harg3 arg4 harg4 arg5 harg5 arg6 harg6) K := by
  simp only [cc1__normalize_relu_kernel_eq_skeleton]; unfold cc1__normalize_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl]
  dsimp only [dat1]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) _ (iblk1 V c 1 t) (iblk1 V c 2 t) (iblk1 V c 3 t) (iblk1 V c 4 t) _)
  iframe H0 H1 H2 H3 H4 H5
  iintro ⟨H0, H1, H2, H3, H4, H5⟩
  iframe

theorem body_obligation1 (c : Dev nD) : BodyObligation (dat1 (F := F) V c) (defs₀ (F := F)) Variants.none () Set.univ := fun t => by
  rw [bigSep_W1, bigSep_W1]
  exact sound_body1 V c t

theorem out1_5_eq (x0 : Vec F S2000x128 .f32) (x1 x2 x3 x4 : Vec F S1x128 .f32) :
    out1_5 x0 x1 x2 x3 x4 = k1_pay1 x0 x1 x2 x3 x4 := by
  have hz : (![0, 0] : Fin 2 → Nat) = fun _ => 0 := by funext a; fin_cases a <;> rfl
  unfold out1_5
  rw [View.canon_unit_zero hz, View.ld_unit_zero (S := S2000x128) hz, View.ld_unit_zero (S := S1x128) hz,
    View.ld_unit_zero (S := S1x128) hz, View.ld_unit_zero (S := S1x128) hz, View.ld_unit_zero (S := S1x128) hz]

end Cert.Kernel.Hand

end
-- ==== Proof.KnReg3.lean ====
import proofs.«427484_j7000796693090_1_alg».proof.Proof.Gen.Kernel.Launch
import proofs.«427484_j7000796693090_1_alg».proof.Proof.Gen.Kernel.Skeleton
import proofs.«427484_j7000796693090_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rBig3 : Rect S2000x128 := Rect.unit (s := S2000x128) ![0, 0] S2000x128.size inb_S2000x128_S2000x128_0_0
abbrev rRow3 : Rect S1x128 := Rect.unit (s := S1x128) ![0, 0] S1x128.size inb_S1x128_S1x128_0_0

def out3_5 (x0 : Vec F S2000x128 .f32) (x1 x2 x3 x4 : Vec F S1x128 .f32) : Vec F S2000x128 .f32 :=
  View.canon [⟨rBig3, k3_pay1 (View.ld x0 rBig3) (View.ld x1 rRow3) (View.ld x2 rRow3) (View.ld x3 rRow3) (View.ld x4 rRow3)⟩]

theorem cover3_5 (p0 : Vec F S2000x128 .f32) (y : S2000x128.Idx) :
    ∃ pc ∈ ([⟨rBig3, p0⟩] : List (View.Piece (Elt F) S2000x128 .f32)), y ∈ pc.1.set :=
  View.cover_of_tiled [⟨rBig3, p0⟩] S2000x128.size (by rfl) y

set_option maxHeartbeats 1000000 in
theorem sound_kernel3 (c : Dev nD) (E : Set ℕ) (i : grid3.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (x0 d : Vec F S2000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare d
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__normalize_kernel i arg1 harg1 arg2 harg2 arg3 harg3 arg4 harg4 arg5 harg5 arg6 harg6) K := by
  simp only [cc3__normalize_kernel_eq_skeleton]; unfold cc3__normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_5 (c : Dev nD) (t : Fin cfg3.N) : (dat3 V c).after 5 t
    = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl
theorem before3_4 (c : Dev nD) (t : Fin cfg3.N) (d) : (dat3 V c).before 4 t d = iblk3 V c 4 t :=
  ((dat3 V c).before_in_eq_fetched 4 rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl]
  dsimp only [dat3]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) _ (iblk3 V c 1 t) (iblk3 V c 2 t) (iblk3 V c 3 t) (iblk3 V c 4 t) _)
  iframe H0 H1 H2 H3 H4 H5
  iintro ⟨H0, H1, H2, H3, H4, H5⟩
  iframe

theorem body_obligation3 (c : Dev nD) : BodyObligation (dat3 (F := F) V c) (defs₀ (F := F)) Variants.none () Set.univ := fun t => by
  rw [bigSep_W3, bigSep_W3]
  exact sound_body3 V c t

theorem out3_5_eq (x0 : Vec F S2000x128 .f32) (x1 x2 x3 x4 : Vec F S1x128 .f32) :
    out3_5 x0 x1 x2 x3 x4 = k3_pay1 x0 x1 x2 x3 x4 := by
  have hz : (![0, 0] : Fin 2 → Nat) = fun _ => 0 := by funext a; fin_cases a <;> rfl
  unfold out3_5
  rw [View.canon_unit_zero hz, View.ld_unit_zero (S := S2000x128) hz, View.ld_unit_zero (S := S1x128) hz,
    View.ld_unit_zero (S := S1x128) hz, View.ld_unit_zero (S := S1x128) hz, View.ld_unit_zero (S := S1x128) hz]

end Cert.Kernel.Hand

end
-- ==== Proof.KnRun.lean ====
import proofs.«427484_j7000796693090_1_alg».proof.Proof.Gen.Kernel.Launch
import proofs.«427484_j7000796693090_1_alg».proof.Proof.Gen.Kernel.Regions
import proofs.«427484_j7000796693090_1_alg».proof.Proof.KnReg0
import proofs.«427484_j7000796693090_1_alg».proof.Proof.KnReg2
import proofs.«427484_j7000796693090_1_alg».proof.Proof.KnReg1
import proofs.«427484_j7000796693090_1_alg».proof.Proof.KnReg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev W0 (m : (ℓ : Loc nD τ sig) → Buf (Elt F) ℓ) (ρ : Dev nD → PrngReg) : Dev nD → Valuation τ sig (Elt F) := fun c b => m (c, b)

variable (m : (ℓ : Loc nD τ sig) → Buf (Elt F) ℓ) (ρ : Dev nD → PrngReg)

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N :=
  Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) :=
  Pipeline.withArrays_of_ne spec1 c _ _ b hb

abbrev W5 : Dev nD → Valuation τ sig (Elt F) := fun c => StableHlo.after hostOps2 (W4 m ρ c)
abbrev W6 : Dev nD → Valuation τ sig (Elt F) := fun c => StableHlo.after hostOps2_1 (W5 m ρ c)
abbrev W7 : Dev nD → Valuation τ sig (Elt F) := fun c => StableHlo.after hostOps2_2 (W6 m ρ c)
abbrev V7 : (c : Dev nD) → (b : Ref sig .tc) → Buf (Elt F) ((c : Thread nD τ).loc b) := fun c b => W7 m ρ c b
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N :=
  Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) :=
  Pipeline.withArrays_of_ne spec2 c _ _ b hb

abbrev W9 : Dev nD → Valuation τ sig (Elt F) := fun c => StableHlo.after hostOps3 (W8 m ρ c)
abbrev V9 : (c : Dev nD) → (b : Ref sig .tc) → Buf (Elt F) ((c : Thread nD τ).loc b) := fun c b => W9 m ρ c b
def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N :=
  Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) :=
  Pipeline.withArrays_of_ne spec3 c _ _ b hb

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W6_of (c : Dev nD) (r : Ref sig .tc) (h : r ∉ hostOps2_1_W) : W6 m ρ c (Proc.devRef .tc r) = W5 m ρ c (Proc.devRef .tc r) :=
  StableHlo.after_of_writes_sub hostOps2_1 _ hostOps2_1_writes h
theorem W7_of (c : Dev nD) (r : Ref sig .tc) (h : r ∉ hostOps2_2_W) : W7 m ρ c (Proc.devRef .tc r) = W6 m ρ c (Proc.devRef .tc r) :=
  StableHlo.after_of_writes_sub hostOps2_2 _ hostOps2_2_writes h
theorem W9_of (c : Dev nD) (r : Ref sig .tc) (h : r ∉ hostOps3_W) : W9 m ρ c (Proc.devRef .tc r) = W8 m ρ c (Proc.devRef .tc r) :=
  StableHlo.after_of_writes_sub hostOps3 _ hostOps3_writes h

/-- No output window of the launch has `r` for its array. -/
abbrev keeps (cfg : Cfg sig Λ₀) (r : Ref sig .tc) : Prop := ∀ w, Pipeline.arrRef cfg.spec w = r → (cfg.win w).isOut = false

-- a launch leaves an array that is not one of its outputs, and every buffer that is not one of its arrays, as entered
theorem withArrays_kept {cfg : Cfg sig Λ₀} {c : Dev nD} (dat : Dat τ (Elt F) Unit ℕ (UR sig nD τ) ℕ cfg c) (V : Valuation τ sig (Elt F))
    (hinj : Function.Injective (Pipeline.arrRef cfg.spec)) (hA : ∀ w, dat.A w = V (Proc.devRef .tc (Pipeline.arrRef cfg.spec w)))
    (r : Ref sig .tc) (hk : keeps cfg r) :
    Pipeline.withArrays cfg.spec c V (fun w => dat.arrAt w cfg.N) (Proc.devRef .tc r) = V (Proc.devRef .tc r) := by
  by_cases h : ∃ w, Pipeline.arrRef cfg.spec w = r
  · obtain ⟨w, rfl⟩ := h
    rw [Pipeline.withArrays_arr _ hinj, dat.arrAt_in w (hk w rfl), hA]
  · exact Pipeline.withArrays_of_ne _ c V _ r fun w e => h ⟨w, e⟩

-- the last four stretches do not write `r` and the last two launches keep it
theorem W10_eq_W4 (c : Dev nD) (r : Ref sig .tc)
    (h : r ∉ hostOps2_W ∧ r ∉ hostOps2_1_W ∧ r ∉ hostOps2_2_W ∧ keeps cfg2 r ∧ r ∉ hostOps3_W ∧ keeps cfg3 r) :
    W10 m ρ c (Proc.devRef .tc r) = W4 m ρ c (Proc.devRef .tc r) :=
  (withArrays_kept (dat3 (V9 m ρ) c) _ launch3.win.arr_inj (A_eq3 _ c) r h.2.2.2.2.2).trans <| (W9_of m ρ c r h.2.2.2.2.1).trans <|
  (withArrays_kept (dat2 (V7 m ρ) c) _ launch2.win.arr_inj (A_eq2 _ c) r h.2.2.2.1).trans <| (W7_of m ρ c r h.2.2.1).trans <|
  (W6_of m ρ c r h.2.1).trans (W5_of m ρ c r h.1)

-- a buffer that no stretch writes and every launch keeps ends as launched
theorem W10_kept (c : Dev nD) (r : Ref sig .tc)
    (h : (r ∉ hostOps0_W ∧ keeps cfg0 r ∧ r ∉ hostOps1_W ∧ keeps cfg1 r)
      ∧ r ∉ hostOps2_W ∧ r ∉ hostOps2_1_W ∧ r ∉ hostOps2_2_W ∧ keeps cfg2 r ∧ r ∉ hostOps3_W ∧ keeps cfg3 r) :
    W10 m ρ c (Proc.devRef .tc r) = m ((c : Thread nD τ).loc r) :=
  (W10_eq_W4 m ρ c r h.2).trans <|
  (withArrays_kept (dat1 (V3 m ρ) c) _ launch1.win.arr_inj (A_eq1 _ c) r h.1.2.2.2).trans <| (W3_of m ρ c r h.1.2.2.1).trans <|
  (withArrays_kept (dat0 (V1 m ρ) c) _ launch0.win.arr_inj (A_eq0 _ c) r h.1.2.1).trans (W1_of m ρ c r h.1.1)

theorem W10_feat (c : Dev nD) : W10 m ρ c (Proc.devRef .tc main_v13) = (dat1 (V3 m ρ) c).arrAt 5 cfg1.N :=
  (W10_eq_W4 m ρ c main_v13 (by decide)).trans (W4_arr m ρ c 5)
theorem W10_out (c : Dev nD) : W10 m ρ c (Proc.devRef .tc main_v38) = (dat3 (V9 m ρ) c).arrAt 5 cfg3.N :=
  W10_arr m ρ c 5

def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V7 m ρ) c
  | ⟨3, _⟩ => fun c => dat3 (V9 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op (List.forall_iff_forall_mem.mp hsub op h)) (List.forall_iff_forall_mem.mp hfresh) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m ρ c) ∗ ∃ r, prngReg c r)

/-- Launch `p` takes the memory `Wi` to `Wo`: `Wo` has the launch's arrays at their final contents and agrees with `Wi` elsewhere. -/
def reg (p : Fin 4) (lf : Pipeline.LaunchFacts (nD := nD) (τ := τ) cfgs p) (Wi Wo : Dev nD → Valuation τ sig (Elt F))
    (hA : ∀ c w, (pdats m ρ p c).A w = Wi c (Proc.devRef .tc (Pipeline.arrRef (cfgs p).spec w)))
    (hq : ∀ c w, (pdats m ρ p c).q w = fullShare) (hw : ∀ c t, (pdats m ρ p c).owed t = 0)
    (hr : ∀ c, (pdats m ρ p c).recorded 0 = Set.univ)
    (hb : ∀ c, BodyObligation (pdats m ρ p c) (defs₀ (F := F)) 𝒱₀ () Set.univ)
    (hi : ∀ c, (Pipeline.ΦA (cfgs p).spec c : sProp 𝕄) ⊢ (pdats m ρ p c).Φ 0)
    (hx : ∀ c, (pdats m ρ p c).Φ (Fin.last _) ⊢ (Pipeline.ΦA (cfgs p).spec c : sProp 𝕄))
    (hF : ∀ c w, Wo c (Proc.devRef .tc (Pipeline.arrRef (cfgs p).spec w)) = (pdats m ρ p c).arrAt w (cfgs p).N)
    (hne : ∀ c (b : Ref sig .tc), (∀ w, Pipeline.arrRef (cfgs p).spec w ≠ b) → Wo c (Proc.devRef .tc b) = Wi c (Proc.devRef .tc b)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p hw
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (cfgs p).spec c fun b => Wi c b
  hentry c := by
    have hsplit := Pipeline.arrays_of_unscopedBufs (p := p) pcfgs adm (pdats m ρ) lf.win lf.arr_whole c
      ((pdats m ρ p c).share_full (hq c)) (fun b => Wi c b) (hA c)
    rw [Pipeline.unscopedBufs_held] at hsplit
    unfold Pipeline.Dat.owesAt Pipeline.owesWithin Pipeline.prefHeld
    rw [hw c, show (Finset.univ : Finset (Fin 0)) = ∅ from rfl, BI.bigSep_empty]
    iintro ⟨⟨Hub, Hp, %W, HO⟩, -, -⟩
    ihave H := hsplit $$ Hub
    icases H with ⟨Ha, Hrest⟩
    imodintro
    iframe
    isplitr; · iempintro
    iexists W; iframe
    ipureintro; exact fun _ _ => Or.inl (hr c ▸ trivial)
  hin c := by
    refine BIBase.Entails.trans ?_ (hi c)
    unfold Pipeline.ΦA
    iintro ⟨Hp, -, Hr⟩
    iframe
  hout c := by
    rw [Pipeline.ownSems0_none]
    refine BIBase.Entails.trans (hx c) ?_
    unfold Pipeline.ΦA
    iintro ⟨Hr, Hp⟩
    iframe; iempintro
  hexit c := by
    have hjoin := Pipeline.unscopedBufs_of_arrays (p := p) pcfgs adm
      lf.win lf.arr_whole c (pdats m ρ) ((pdats m ρ p c).share_full (hq c))
      (fun b => Wi c b) (fun b => Wo c b) ((pdats m ρ p c).arrAt · (cfgs p).N) (fun w => (hF c w).symm)
      fun b hb => hne c b fun w e => hb (Finset.mem_image.mpr ⟨w, Finset.mem_univ _, e⟩)
    rw [Pipeline.unscopedBufs_held] at hjoin
    unfold Pipeline.Dat.owesAt Pipeline.owesWithin; rw [hw c]
    iintro ⟨Ha, ⟨%W, -, HO⟩, HY, Hrest⟩
    imodintro
    isplitl [Ha Hrest]
    · iapply hjoin; iframe
    isplitl [HY]; · iexact HY
    iexists W; iexact HO

abbrev segs : List (Pipeline.Seg (pcfgs (F := F)) adm (pdats m ρ) () defs₀ 𝒱₀ L lv) :=
  [ .host (hseg hostOps0 hostOps0_sub hostOps0_fresh (W0 m ρ)),
    .region (reg m ρ 0 launch0 (W1 m ρ) (W2 m ρ) (A_eq0 _) (fun _ _ => rfl) (fun _ _ => rfl) (fun _ => rfl)
      (body_obligation0 _) (hin0 _) (hout0 _) (W2_arr m ρ) (W2_of_ne m ρ)),
    .host (hseg hostOps1 hostOps1_sub hostOps1_fresh (W2 m ρ)),
    .region (reg m ρ 1 launch1 (W3 m ρ) (W4 m ρ) (A_eq1 _) (fun _ _ => rfl) (fun _ _ => rfl) (fun _ => rfl)
      (body_obligation1 _) (fun _ => .rfl) (fun _ => .rfl) (W4_arr m ρ) (W4_of_ne m ρ)),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)),
    .region (reg m ρ 2 launch2 (W7 m ρ) (W8 m ρ) (A_eq2 _) (fun _ _ => rfl) (fun _ _ => rfl) (fun _ => rfl)
      (body_obligation2 _) (hin2 _) (hout2 _) (W8_arr m ρ) (W8_of_ne m ρ)),
    .host (hseg hostOps3 hostOps3_sub hostOps3_fresh (W8 m ρ)),
    .region (reg m ρ 3 launch3 (W9 m ρ) (W10 m ρ) (A_eq3 _) (fun _ _ => rfl) (fun _ _ => rfl) (fun _ => rfl)
      (body_obligation3 _) (fun _ => .rfl) (fun _ => .rfl) (W10_arr m ρ) (W10_of_ne m ρ)) ]

theorem run : θ_run defs (onTc (τ := τ) (main (F := F))) ⟨m, fun _ => 0, ρ⟩
    (fun r => ∀ c : Dev nD, ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_chain c, Pipeline.Seg.run_eq_chain]; exact .rfl)
    (by simp only [segs, Pipeline.Seg.pipes_host, Pipeline.Seg.pipes_region, Pipeline.Seg.pipes_nil]; decide)
    (O₀ := 0) (hL := fun _ _ => rfl) (G := fun _ => BI.emp)
    (hu₀ := by
      rw [BI.bigSep_emp_const, ownU_emb₁]; iintro Hu; imodintro
      isplitl [Hu]; · iexact Hu
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => sep_assoc'⟩)
    (hinit := by
      refine Pipeline.initEach L lv fun c => ?_
      rw [Pipeline.unscopedBufs_held c (W0 m ρ c)]
      iintro ⟨⟨Hh, -, HO, -, Hp, -⟩, -⟩
      imodintro; iframe
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      iframe)
    (hQ := fun s h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => by
    refine ⟨?_, ?_, ?_, ?_, ?_, ?_, ?_, ?_, ?_, ?_, ?_⟩ <;>
      exact (h c _ (mem_uc _ (by decide))).trans (W10_kept m ρ c _ (by decide))) (run m ρ)

end Cert.Kernel.Hand

end
-- ==== Proof.KiReg0.lean ====
import proofs.«427484_j7000796693090_1_alg».proof.Proof.Gen.KernelIdeal.Launch
import proofs.«427484_j7000796693090_1_alg».proof.Proof.Gen.KernelIdeal.Skeleton
import proofs.«427484_j7000796693090_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def hblk0 (c : Dev nD) (t : Fin cfg0.N) : Vec F S2000x128 .f32 :=
  k0_pay3 (iblk0 V c 0 t) (iblk0 V c 1 t) (iblk0 V c 2 t)

def acc0 (c : Dev nD) : (n : ℕ) → n < cfg0.N → Vec F S1x128 .f32 × Vec F S1x128 .f32
  | 0, h0 => (k0_pay4 (iblk0 V c 0 ⟨0, h0⟩) (iblk0 V c 1 ⟨0, h0⟩) (iblk0 V c 2 ⟨0, h0⟩) (k0_pay1 (F := F)),
      k0_pay5 (iblk0 V c 0 ⟨0, h0⟩) (iblk0 V c 1 ⟨0, h0⟩) (iblk0 V c 2 ⟨0, h0⟩) (k0_pay2 (F := F)))
  | n + 1, hn => (k0_pay4 (iblk0 V c 0 ⟨n + 1, hn⟩) (iblk0 V c 1 ⟨n + 1, hn⟩) (iblk0 V c 2 ⟨n + 1, hn⟩) (acc0 c n (Nat.lt_of_succ_lt hn)).1,
      k0_pay5 (iblk0 V c 0 ⟨n + 1, hn⟩) (iblk0 V c 1 ⟨n + 1, hn⟩) (iblk0 V c 2 ⟨n + 1, hn⟩) (acc0 c n (Nat.lt_of_succ_lt hn)).2)

theorem acc0_zero (c : Dev nD) (h0 : 0 < cfg0.N) :
    acc0 V c 0 h0 = (k0_pay4 (iblk0 V c 0 ⟨0, h0⟩) (iblk0 V c 1 ⟨0, h0⟩) (iblk0 V c 2 ⟨0, h0⟩) (k0_pay1 (F := F)),
      k0_pay5 (iblk0 V c 0 ⟨0, h0⟩) (iblk0 V c 1 ⟨0, h0⟩) (iblk0 V c 2 ⟨0, h0⟩) (k0_pay2 (F := F))) := rfl

theorem acc0_succ (c : Dev nD) (n : ℕ) (hn : n + 1 < cfg0.N) :
    acc0 V c (n + 1) hn = (k0_pay4 (iblk0 V c 0 ⟨n + 1, hn⟩) (iblk0 V c 1 ⟨n + 1, hn⟩) (iblk0 V c 2 ⟨n + 1, hn⟩) (acc0 V c n (Nat.lt_of_succ_lt hn)).1,
      k0_pay5 (iblk0 V c 0 ⟨n + 1, hn⟩) (iblk0 V c 1 ⟨n + 1, hn⟩) (iblk0 V c 2 ⟨n + 1, hn⟩) (acc0 V c n (Nat.lt_of_succ_lt hn)).2) := rfl

abbrev scSum0 : Memref sig .tc .vmem S1x128 .f32 := Memref.whole cc0_scratch0
abbrev scSq0 : Memref sig .tc .vmem S1x128 .f32 := Memref.whole cc0_scratch1

abbrev restBut0 (c : Dev nD) : sProp 𝕄 :=
  Pipeline.scopedRestBut (Ix := Unit) (Name := ℕ) (U := UR sig nD τ) (Lvl := ℕ) (Val := Elt F) spec0 c [cc0_scratch0, cc0_scratch1]

theorem PhiA0_eq (c : Dev nD) :
    (Pipeline.ΦA spec0 c : sProp 𝕄)
      = iprop(iprop(iprop((∃ d, owns (c : Thread nD τ) scSum0 fullShare d) ∗ (∃ d, owns (c : Thread nD τ) scSq0 fullShare d)) ∗ restBut0 c) ∗ (∃ r, prngReg c r)) := by
  unfold Pipeline.ΦA; rw [scopedRest0_split]; simp only [scSum0, scSq0, owns_whole]; try rfl

-- Before point `n` the two scratch rows hold what point `n - 1` left; before the first point, anything.
def Phi0 (c : Dev nD) (n : ℕ) : sProp 𝕄 :=
  iprop(∃ s : Vec F S1x128 .f32 × Vec F S1x128 .f32, ⌜∀ m hm, m + 1 = n → s = acc0 V c m hm⌝
    ∗ owns (c : Thread nD τ) scSum0 fullShare s.1 ∗ owns (c : Thread nD τ) scSq0 fullShare s.2 ∗ restBut0 c ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => hblk0 V c t
    | ⟨4, _⟩ => (acc0 V c t.val t.isLt).1
    | ⟨5, _⟩ => (acc0 V c t.val t.isLt).2
  Φ t := Phi0 V c t.val
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) : (dat0 V c).after 3 t = hblk0 V c t := by dsimp only [dat0]
theorem after0_4 (c : Dev nD) (t : Fin cfg0.N) : (dat0 V c).after 4 t = (acc0 V c t.val t.isLt).1 := by dsimp only [dat0]
theorem after0_5 (c : Dev nD) (t : Fin cfg0.N) : (dat0 V c).after 5 t = (acc0 V c t.val t.isLt).2 := by dsimp only [dat0]

theorem before0_in (c : Dev nD) (t : Fin cfg0.N) : (∀ d, (dat0 V c).before 0 t d = iblk0 V c 0 t) ∧ (∀ d, (dat0 V c).before 1 t d = iblk0 V c 1 t)
    ∧ (∀ d, (dat0 V c).before 2 t d = iblk0 V c 2 t) := by
  refine ⟨?_, ?_, ?_⟩ <;> exact fun d => ((dat0 V c).before_in_eq_fetched _ rfl (fun _ => rfl) (fun _ _ _ => rfl) (fun _ => rfl) t d).trans rfl

theorem hin0 (c : Dev nD) : (Pipeline.ΦA spec0 c : sProp 𝕄) ⊢ (dat0 V c).Φ 0 := by
  rw [PhiA0_eq, show (dat0 V c).Φ 0 = Phi0 V c 0 from rfl]; unfold Phi0
  iintro ⟨⟨⟨⟨%e7, H7⟩, ⟨%e8, H8⟩⟩, Hr⟩, Hg⟩
  iexists (e7, e8); iframe H7 H8 Hr Hg
  ipureintro; exact fun m _ e => absurd e (Nat.succ_ne_zero m)

theorem hout0 (c : Dev nD) : (dat0 V c).Φ (Fin.last cfg0.N) ⊢ (Pipeline.ΦA spec0 c : sProp 𝕄) := by
  rw [PhiA0_eq, show (dat0 V c).Φ (Fin.last cfg0.N) = Phi0 V c cfg0.N from rfl]; unfold Phi0
  iintro ⟨%s, -, H7, H8, Hr, Hg⟩
  iframe Hr Hg
  isplitl [H7] <;> iexists _ <;> iassumption

theorem cond0 : ∀ t : Fin grid0.N,
    ((Scalar.cmpi .ne (Scalar.extui (Scalar.cmpi .eq (BitVec.ofNat 32 (grid0.coords t 0).val) 0#32)) 0#32) = 1#1 ↔ t.val = 0)
      ∧ (k0_cond2 (grid0.coords t) = 1#1 ↔ t.val = 49) := by decide +kernel

theorem hz0 : (![0, 0] : Fin 2 → Nat) = fun _ => 0 := funext fun a => by fin_cases a <;> rfl

section
variable {κ : Kind} {sp : Space} {sz : Fin 2 → ℕ} (v : View sig κ sp ⟨2, sz⟩ .f32) (f : v.ty.Contents (Elt F))
  (inb : ∀ a, (![0, 0] : Fin 2 → ℕ) a + sz a ≤ (⟨2, sz⟩ : Shape).size a) (p : Vec F ⟨2, sz⟩ .f32)

-- A store through the whole rectangle, made last, leaves its payload;
theorem stored0 (L : List (View.Piece (Elt F) ⟨2, sz⟩ .f32)) : v.read (Elt F) (v.writes (Elt F) f (⟨Rect.unit ![0, 0] sz inb, p⟩ :: L)) = p := by
  rw [View.read_writes_eq_canon _ _ _ (fun y => ⟨_, List.mem_cons_self, View.mem_set_unit_zero hz0 inb y⟩), View.canon_cons_unit_zero hz0]

-- a load through it reads the contents,
theorem loaded0 : v.readAt (Elt F) (Rect.unit ![0, 0] sz inb).toLoadRect f = v.read (Elt F) f := View.ld_unit_zero hz0 _ _

-- and after one store through it, that store's payload.
theorem reloaded0 : v.readCov [(⟨Rect.unit ![0, 0] sz inb, p⟩ : View.Piece (Elt F) ⟨2, sz⟩ .f32)] (Rect.unit ![0, 0] sz inb).toLoadRect = p :=
  View.readCov_unit_zero v hz0 _ p
end

section
variable (arg1 : Memref sig .tc .vmem S2000x48 .f32) (harg1 : arg1.IsWhole) (arg2 : Memref sig .tc .vmem S128x48 .f32) (harg2 : arg2.IsWhole)
  (arg3 : Memref sig .tc .vmem S1x128 .f32) (harg3 : arg3.IsWhole) (arg4 : Memref sig .tc .vmem S2000x128 .f32) (harg4 : arg4.IsWhole)
  (arg5 : Memref sig .tc .vmem S1x128 .f32) (harg5 : arg5.IsWhole) (arg6 : Memref sig .tc .vmem S1x128 .f32) (harg6 : arg6.IsWhole)
  (arg7 : Memref sig .tc .vmem S1x128 .f32) (harg7 : arg7.IsWhole) (arg8 : Memref sig .tc .vmem S1x128 .f32) (harg8 : arg8.IsWhole)

def held0 (c : Dev nD) (x0 : Vec F S2000x48 .f32) (x1 : Vec F S128x48 .f32) (x2 : Vec F S1x128 .f32) (x3 : Vec F S2000x128 .f32)
    (x4 x5 x6 x7 : Vec F S1x128 .f32) : sProp 𝕄 :=
  iprop(owns (c : Thread nD τ) arg1 fullShare x0 ∗ owns (c : Thread nD τ) arg2 fullShare x1 ∗ owns (c : Thread nD τ) arg3 fullShare x2
    ∗ owns (c : Thread nD τ) arg4 fullShare x3 ∗ owns (c : Thread nD τ) arg5 fullShare x4 ∗ owns (c : Thread nD τ) arg6 fullShare x5
    ∗ owns (c : Thread nD τ) arg7 fullShare x6 ∗ owns (c : Thread nD τ) arg8 fullShare x7)

-- The body at point `t`: the two scratch rows, zeroed first at point 0, end at `a`; at point 49 the two output rows receive `a`.
theorem sound_kernel0 (c : Dev nD) (E : Set ℕ) (t : Fin cfg0.N) (x0 x1 x2 d3 y4 y5 s7 s8 a)
    (ha : a = (k0_pay4 x0 x1 x2 (if t.val = 0 then k0_pay1 else s7), k0_pay5 x0 x1 x2 (if t.val = 0 then k0_pay2 else s8)))
    (K : PUnit → sProp 𝕄) :
    iprop(held0 arg1 arg2 arg3 arg4 arg5 arg6 arg7 arg8 c x0 x1 x2 d3 y4 y5 s7 s8
        ∗ (held0 arg1 arg2 arg3 arg4 arg5 arg6 arg7 arg8 c x0 x1 x2 (k0_pay3 x0 x1 x2)
            (if t.val = 49 then a.1 else y4) (if t.val = 49 then a.2 else y5) a.1 a.2 -∗ K ⟨⟩))
      ⊢ wp frame (wpE (defs₀ (F := F)) Variants.none c none) E (cc0__proj_reduce_kernel (grid0.coords t) arg1 harg1 arg2 harg2 arg3 harg3 arg4 harg4 arg5 harg5 arg6 harg6 arg7 harg7 arg8 harg8) K := by
  subst ha
  have c0 := cond0 t
  by_cases h0 : t.val = 0 <;> by_cases h9 : t.val = 49 <;> simp (disch := assumption) only [if_pos, if_neg]
  · omega
  all_goals
    simp only [cc0__proj_reduce_kernel_eq_skeleton]; unfold cc0__proj_reduce_kernel_skel
    simp only [k0_part1_eq_skeleton]; unfold k0_part1_skel
    rw [held0]; unfold owns
    iintro ⟨⟨⟨%f0, %hf0, H0⟩, ⟨%f1, %hf1, H1⟩, ⟨%f2, %hf2, H2⟩, ⟨%f3, -, H3⟩, ⟨%f4, %hf4, H4⟩, ⟨%f5, %hf5, H5⟩, ⟨%f6, %hf6, H6⟩, ⟨%f7, %hf7, H7⟩⟩, Hk⟩
    subst hf0 hf1 hf2 hf4 hf5 hf6 hf7
    sl_exec (disch := first | exact c0.1.mpr h0 | exact c0.1.not.mpr h0 | exact c0.2.mpr h9 | exact c0.2.not.mpr h9)
    sl_step
    iapply Hk
    rw [held0]
    ihave H0 := owns_intro _ _ _ _ $$ H0
    ihave H1 := owns_intro _ _ _ _ $$ H1
    ihave H2 := owns_intro _ _ _ _ $$ H2
    ihave H3 := owns_intro _ _ _ _ $$ H3
    ihave H4 := owns_intro _ _ _ _ $$ H4
    ihave H5 := owns_intro _ _ _ _ $$ H5
    ihave H6 := owns_intro _ _ _ _ $$ H6
    ihave H7 := owns_intro _ _ _ _ $$ H7
    sl_unfold_run_names
    simp only [stored0, reloaded0, loaded0]
    iframe
end

theorem last0 : ∀ t : Fin cfg0.N, ∀ w : Fin cfg0.W, 4 ≤ w.val → (t.val = 49 → cfg0.idle w (grid0.coords t) = false)
    ∧ (t.val ≠ 49 → cfg0.idle w (grid0.coords t) = true ∧ (cfg0.win w).flush t = false) := by decide +kernel

-- At the last point an output row holds its sum; at every other point what it held.
theorem leaves0 (c : Dev nD) (t : Fin cfg0.N) (w : Fin cfg0.W) (hw : 4 ≤ w.val) (d) :
    owns (c : Thread nD τ) ((cfg0.win w).stage (cfg0.slots t w)) fullShare (if t.val = 49 then (dat0 V c).after w t else (dat0 V c).before w t d)
      ⊢ (dat0 V c).leavesExact w t := by
  obtain ⟨hl, hi⟩ := last0 t w hw
  by_cases h : t.val = 49
  · rw [if_pos h]; unfold Dat.leavesExact; rw [hl h]
  · rw [if_neg h, Dat.leavesExact_idle _ w t (hi h).1 (hi h).2]
    iintro H; iexists _; iexact H

-- The rows after point `t`, from what they held before it.
theorem acc0_step (c : Dev nD) (t : Fin cfg0.N) (s : Vec F S1x128 .f32 × Vec F S1x128 .f32) (hs : ∀ m hm, m + 1 = t.val → s = acc0 V c m hm) :
    acc0 V c t.val t.isLt = (k0_pay4 (iblk0 V c 0 t) (iblk0 V c 1 t) (iblk0 V c 2 t) (if t.val = 0 then k0_pay1 else s.1),
      k0_pay5 (iblk0 V c 0 t) (iblk0 V c 1 t) (iblk0 V c 2 t) (if t.val = 0 then k0_pay2 else s.2)) := by
  obtain ⟨_ | n, hn⟩ := t
  · rfl
  · rw [hs n (Nat.lt_of_succ_lt hn) rfl]; rfl

theorem body_obligation0 (c : Dev nD) : BodyObligation (dat0 (F := F) V c) (defs₀ (F := F)) Variants.none () Set.univ := fun t => by
  rw [bigSep_W0, bigSep_W0]
  simp only [before0_in V c t]
  dsimp only [dat0]; unfold Phi0 hblk0
  iintro ⟨⟨%s, %hs, HS0, HS1, Hrest, Hg⟩, Ho, ⟨%d0, H0⟩, ⟨%d1, H1⟩, ⟨%d2, H2⟩, ⟨%d3, H3⟩, ⟨%d4, H4⟩, ⟨%d5, H5⟩⟩
  iapply sound_kernel0 _ _ _ _ _ _ _ _ _ _ _ _ _ _ _ _ c Set.univ t _ _ _ _ _ _ _ _ _ (acc0_step V c t s hs)
  unfold held0
  iframe H0 H1 H2 H3 H4 H5 HS0 HS1
  iintro ⟨H0, H1, H2, H3, H4, H5, HS0, HS1⟩
  isplitl [HS0 HS1 Hrest Hg]
  · iexists _; iframe HS0 HS1 Hrest Hg
    ipureintro; exact fun m hm e => by obtain rfl : m = t.val := Nat.succ.inj e; rfl
  isplitl [Ho]; · iexact Ho
  iframe H0 H1 H2 H3
  isplitl [H4]
  · iapply leaves0 V c t 4 (by decide) d4; iexact H4
  iapply leaves0 V c t 5 (by decide) d5; iexact H5

end Cert.KernelIdeal.Hand

end
-- ==== Proof.KiReg2.lean ====
import proofs.«427484_j7000796693090_1_alg».proof.Proof.Gen.KernelIdeal.Launch
import proofs.«427484_j7000796693090_1_alg».proof.Proof.Gen.KernelIdeal.Skeleton
import proofs.«427484_j7000796693090_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem hz2 : (![0, 0] : Fin 2 → Nat) = fun _ => 0 := funext fun a => by fin_cases a <;> rfl

theorem read_store_whole2 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

theorem readAt_whole2 {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

abbrev cond2_0 (i : grid2.Coords) : Prop := (Scalar.cmpi .ne (Scalar.extui (Scalar.cmpi .eq (BitVec.ofNat 32 (i 0).val) 0#32)) 0#32) = 1#1
abbrev cond2_1 (i : grid2.Coords) : Prop := k2_cond2 i = 1#1

set_option maxHeartbeats 500000 in
/-- The body's triple at any point, with both of its conditions left open. -/
theorem sound_kernel2 (c : Dev nD) (E : Set ℕ) (i : grid2.Coords)
    (arg1 arg2 arg6 : Memref sig .tc .vmem S2000x128 .f32) (arg3 arg4 : Memref sig .tc .vmem S128x128 .f32) (arg5 arg7 arg8 arg9 arg10 : Memref sig .tc .vmem S1x128 .f32)
    (harg1 : arg1.IsWhole) (harg2 : arg2.IsWhole) (harg3 : arg3.IsWhole) (harg4 : arg4.IsWhole) (harg5 : arg5.IsWhole)
    (harg6 : arg6.IsWhole) (harg7 : arg7.IsWhole) (harg8 : arg8.IsWhole) (harg9 : arg9.IsWhole) (harg10 : arg10.IsWhole)
    (x0 x1 d5 : Vec F S2000x128 .f32) (x2 x3 : Vec F S128x128 .f32) (x4 y6 y7 s0 s1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare d5
        ∗ owns (c : Thread nD τ) arg7 fullShare y6 ∗ owns (c : Thread nD τ) arg8 fullShare y7
        ∗ owns (c : Thread nD τ) arg9 fullShare s0 ∗ owns (c : Thread nD τ) arg10 fullShare s1
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (k2_pay4 x0 x1 x2 x3 x4)
            ∗ owns (c : Thread nD τ) arg7 fullShare (if cond2_1 i then k2_pay5 x0 x1 x2 x3 x4 (if cond2_0 i then k2_pay2 else s0) else y6)
            ∗ owns (c : Thread nD τ) arg8 fullShare (if cond2_1 i then k2_pay1 (k2_pay6 x0 x1 x2 x3 x4 (if cond2_0 i then k2_pay3 else s1)) else y7)
            ∗ owns (c : Thread nD τ) arg9 fullShare (k2_pay5 x0 x1 x2 x3 x4 (if cond2_0 i then k2_pay2 else s0))
            ∗ owns (c : Thread nD τ) arg10 fullShare (k2_pay1 (k2_pay6 x0 x1 x2 x3 x4 (if cond2_0 i then k2_pay3 else s1)))) -∗ K ⟨⟩))
      ⊢ wp frame (wpE (defs₀ (F := F)) Variants.none c none) E (cc2__sage_reduce_kernel i arg1 harg1 arg2 harg2 arg3 harg3 arg4 harg4 arg5 harg5 arg6 harg6 arg7 harg7 arg8 harg8 arg9 harg9 arg10 harg10) K := by
  split_ifs with h h'
  all_goals
    simp only [cc2__sage_reduce_kernel_eq_skeleton]; unfold cc2__sage_reduce_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, -, H5⟩, ⟨%f6, %hf6, H6⟩, ⟨%f7, %hf7, H7⟩, ⟨%f8, %hf8, H8⟩, ⟨%f9, %hf9, H9⟩, Hk⟩
    subst hf0 hf1 hf2 hf3 hf4 hf6 hf7 hf8 hf9
    sl_exec (disch := first | exact h | exact h')
    sl_step
    iapply Hk
    isplitl [H0]; rotate_left; isplitl [H1]; rotate_left; isplitl [H2]; rotate_left; isplitl [H3]; rotate_left; isplitl [H4]; rotate_left
    isplitl [H5]; rotate_left; isplitl [H6]; rotate_left; isplitl [H7]; rotate_left; isplitl [H8]; rotate_left
    all_goals
      iexists _; isplitr; swap; · iassumption
      ipureintro
      first
        | exact (read_store_whole2 _ _ hz2 _ _ _).trans (by sl_unfold_words; simp only [readAt_whole2 (S := S2000x128) _ _ hz2, readAt_whole2 (S := S128x128) _ _ hz2, readAt_whole2 (S := S1x128) _ _ hz2, View.readCov_cons_toLoadRect])
        | rfl

theorem hcond2_0 : ∀ t : Fin cfg2.N, cond2_0 (grid2.coords t) ↔ t.val = 0 := by decide +kernel

theorem idle2 : ∀ (t : Fin cfg2.N) (w : Fin cfg2.W), w = 6 ∨ w = 7 →
    (cond2_1 (grid2.coords t) ∧ cfg2.idle w (grid2.coords t) = false)
      ∨ (¬cond2_1 (grid2.coords t) ∧ cfg2.idle w (grid2.coords t) = true ∧ (cfg2.win w).flush t = false) := by decide +kernel

def sblk2 (c : Dev nD) (t : Fin cfg2.N) : Vec F S2000x128 .f32 :=
  k2_pay4 (iblk2 V c 0 t) (iblk2 V c 1 t) (iblk2 V c 2 t) (iblk2 V c 3 t) (iblk2 V c 4 t)

/-- The two rows with one more block added: its column sums to the first, those of its squares to the second. -/
def rows2 (c : Dev nD) (t : Fin cfg2.N) (s : Vec F S1x128 .f32 × Vec F S1x128 .f32) : Vec F S1x128 .f32 × Vec F S1x128 .f32 :=
  (k2_pay5 (iblk2 V c 0 t) (iblk2 V c 1 t) (iblk2 V c 2 t) (iblk2 V c 3 t) (iblk2 V c 4 t) s.1,
    k2_pay1 (k2_pay6 (iblk2 V c 0 t) (iblk2 V c 1 t) (iblk2 V c 2 t) (iblk2 V c 3 t) (iblk2 V c 4 t) s.2))

def acc2 (c : Dev nD) : (n : ℕ) → n < cfg2.N → Vec F S1x128 .f32 × Vec F S1x128 .f32
  | 0, h => rows2 V c ⟨0, h⟩ (k2_pay2, k2_pay3)
  | n + 1, h => rows2 V c ⟨n + 1, h⟩ (acc2 c n (Nat.lt_of_succ_lt h))

theorem acc2_zero (c : Dev nD) (h0 : 0 < cfg2.N) : acc2 V c 0 h0
    = (k2_pay5 (iblk2 V c 0 ⟨0, h0⟩) (iblk2 V c 1 ⟨0, h0⟩) (iblk2 V c 2 ⟨0, h0⟩) (iblk2 V c 3 ⟨0, h0⟩) (iblk2 V c 4 ⟨0, h0⟩) (k2_pay2 (F := F)),
      k2_pay1 (k2_pay6 (iblk2 V c 0 ⟨0, h0⟩) (iblk2 V c 1 ⟨0, h0⟩) (iblk2 V c 2 ⟨0, h0⟩) (iblk2 V c 3 ⟨0, h0⟩) (iblk2 V c 4 ⟨0, h0⟩) (k2_pay3 (F := F)))) := by
  rw [acc2]; rfl

theorem acc2_succ (c : Dev nD) (n : ℕ) (hn : n + 1 < cfg2.N) : acc2 V c (n + 1) hn
    = (k2_pay5 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (acc2 V c n (Nat.lt_of_succ_lt hn)).1,
      k2_pay1 (k2_pay6 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (acc2 V c n (Nat.lt_of_succ_lt hn)).2)) := by
  rw [acc2]; rfl

abbrev scM2_0 : Memref sig .tc .vmem S1x128 .f32 := Memref.whole cc2_scratch0
abbrev scM2_1 : Memref sig .tc .vmem S1x128 .f32 := Memref.whole cc2_scratch1

abbrev rest2 (c : Dev nD) (P : sProp 𝕄) : sProp 𝕄 :=
  iprop(iprop(P ∗ Pipeline.scopedRestBut (Ix := Unit) (Name := ℕ) (U := UR sig nD τ) (Lvl := ℕ) (Val := Elt F) spec2 c [cc2_scratch0, cc2_scratch1]) ∗ (∃ r, prngReg c r))

theorem PhiA2_eq (c : Dev nD) : (Pipeline.ΦA spec2 c : sProp 𝕄)
    = rest2 c iprop((∃ d, owns (c : Thread nD τ) scM2_0 fullShare d) ∗ (∃ d, owns (c : Thread nD τ) scM2_1 fullShare d)) := by
  unfold Pipeline.ΦA; rw [scopedRest2_split]; simp only [scM2_0, scM2_1, owns_whole]; rfl

def Phi2 (c : Dev nD) : (n : ℕ) → n ≤ cfg2.N → sProp 𝕄
  | 0, _ => Pipeline.ΦA spec2 c
  | n + 1, hn => rest2 c iprop(owns (c : Thread nD τ) scM2_0 fullShare (acc2 V c n hn).1 ∗ owns (c : Thread nD τ) scM2_1 fullShare (acc2 V c n hn).2)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => sblk2 V c t
    | ⟨6, _⟩ => (acc2 V c t.val t.isLt).1
    | ⟨7, _⟩ => (acc2 V c t.val t.isLt).2
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_5 (c : Dev nD) (t : Fin cfg2.N) : (dat2 V c).after 5 t = sblk2 V c t := by dsimp only [dat2]
theorem after2_6 (c : Dev nD) (t : Fin cfg2.N) : (dat2 V c).after 6 t = (acc2 V c t.val t.isLt).1 := by dsimp only [dat2]
theorem after2_7 (c : Dev nD) (t : Fin cfg2.N) : (dat2 V c).after 7 t = (acc2 V c t.val t.isLt).2 := by dsimp only [dat2]

theorem before2_in (c : Dev nD) (t : Fin cfg2.N) : (∀ d, (dat2 V c).before 0 t d = iblk2 V c 0 t) ∧ (∀ d, (dat2 V c).before 1 t d = iblk2 V c 1 t)
    ∧ (∀ d, (dat2 V c).before 2 t d = iblk2 V c 2 t) ∧ (∀ d, (dat2 V c).before 3 t d = iblk2 V c 3 t) ∧ (∀ d, (dat2 V c).before 4 t d = iblk2 V c 4 t) := by
  refine ⟨?_, ?_, ?_, ?_, ?_⟩ <;> exact fun d => ((dat2 V c).before_in_eq_fetched _ rfl (fun _ => rfl) (fun _ _ _ => rfl) (fun _ => rfl) t d).trans rfl

/-- Before a point the two rows are owned at contents from which the body's step gives `acc2` there. -/
theorem Phi2_open (c : Dev nD) (t : Fin cfg2.N) : (dat2 V c).Φ t.castSucc ⊢ iprop(∃ s0 s1,
    ⌜acc2 V c t.val t.isLt = rows2 V c t (if cond2_0 (grid2.coords t) then k2_pay2 else s0, if cond2_0 (grid2.coords t) then k2_pay3 else s1)⌝
    ∗ rest2 c iprop(owns (c : Thread nD τ) scM2_0 fullShare s0 ∗ owns (c : Thread nD τ) scM2_1 fullShare s1)) := by
  obtain ⟨n, hn⟩ := t
  show Phi2 V c n _ ⊢ _
  cases n with
  | zero =>
    rw [Phi2, PhiA2_eq]; unfold rest2; iintro ⟨⟨⟨⟨%d0, H0⟩, ⟨%d1, H1⟩⟩, HR⟩, Hg⟩
    iexists d0, d1; iframe; ipureintro
    rw [acc2, if_pos ((hcond2_0 _).mpr rfl), if_pos ((hcond2_0 _).mpr rfl)]
  | succ n =>
    rw [Phi2]; iintro H; iexists _, _; isplitr; swap; · iexact H
    ipureintro
    rw [acc2, if_neg (mt (hcond2_0 _).mp (Nat.succ_ne_zero n)), if_neg (mt (hcond2_0 _).mp (Nat.succ_ne_zero n))]

theorem leaves2 (c : Dev nD) (t : Fin cfg2.N) (w : Fin cfg2.W) (hw : w = 6 ∨ w = 7) (d) :
    owns (c : Thread nD τ) ((cfg2.win w).stage (cfg2.slots t w)) fullShare
        (if cond2_1 (grid2.coords t) then (dat2 V c).after w t else (dat2 V c).before w t d)
      ⊢ (dat2 V c).leavesExact w t := by
  obtain ⟨h, hi⟩ | ⟨h, hi, hf⟩ := idle2 t w hw
  · unfold Dat.leavesExact; rw [if_pos h, hi]
  · rw [if_neg h, Dat.leavesExact_idle _ w t hi hf]; iintro H; iexists d; iexact H

theorem sound_body2 (c : Dev nD) (t : Fin cfg2.N) :
    (iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d))
      ∗ (∃ d, owns (c : Thread nD τ) (st2_3 t) fullShare ((dat2 V c).before 3 t d))
      ∗ (∃ d, owns (c : Thread nD τ) (st2_4 t) fullShare ((dat2 V c).before 4 t d))
      ∗ (∃ d, owns (c : Thread nD τ) (st2_5 t) fullShare ((dat2 V c).before 5 t d))
      ∗ (∃ d, owns (c : Thread nD τ) (st2_6 t) fullShare ((dat2 V c).before 6 t d))
      ∗ (∃ d, owns (c : Thread nD τ) (st2_7 t) fullShare ((dat2 V c).before 7 t d))) : sProp 𝕄)
      ⊢ wp frame (wpE (defs₀ (F := F)) Variants.none c none) Set.univ (bodyAt2 t) fun _ =>
      iprop((dat2 V c).Φ t.succ ∗ (dat2 V c).owesAt () t.succ
        ∗ owns (c : Thread nD τ) (st2_0 t) fullShare ((dat2 V c).after 0 t)
        ∗ owns (c : Thread nD τ) (st2_1 t) fullShare ((dat2 V c).after 1 t)
        ∗ owns (c : Thread nD τ) (st2_2 t) fullShare ((dat2 V c).after 2 t)
        ∗ owns (c : Thread nD τ) (st2_3 t) fullShare ((dat2 V c).after 3 t)
        ∗ owns (c : Thread nD τ) (st2_4 t) fullShare ((dat2 V c).after 4 t)
        ∗ owns (c : Thread nD τ) (st2_5 t) fullShare ((dat2 V c).after 5 t)
        ∗ (dat2 V c).leavesExact 6 t
        ∗ (dat2 V c).leavesExact 7 t) := by
  simp only [before2_in V c t]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  icases (Phi2_open V c t) $$ HΦ with ⟨%s0, %s1, %hs, ⟨⟨HS0, HS1⟩, HR⟩, Hg⟩
  iapply (sound_kernel2 c Set.univ)
  iframe H0 H1 H2 H3 H4 H5 H6 H7 HS0 HS1
  iintro ⟨H0, H1, H2, H3, H4, H5, H6, H7, HS0, HS1⟩
  isplitl [HS0 HS1 HR Hg]
  · rw [show (dat2 V c).Φ t.succ = Phi2 V c (t.val + 1) t.isLt from rfl, Phi2, hs]; unfold rest2 rows2; iframe
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply (leaves2 V c t 6 (.inl rfl) d6); rw [after2_6, hs]; iexact H6
  iapply (leaves2 V c t 7 (.inr rfl) d7); rw [after2_7, hs]; iexact H7

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := .rfl

theorem hout2 (c : Dev nD) : (dat2 V c).Φ (Fin.last cfg2.N) ⊢ (Pipeline.ΦA spec2 c : sProp 𝕄) := by
  rw [PhiA2_eq]; exact sep_mono_left (sep_mono_left (sep_mono (exists_intro _) (exists_intro _)))

end Cert.KernelIdeal.Hand

end
-- ==== Proof.KiReg1.lean ====
import proofs.«427484_j7000796693090_1_alg».proof.Proof.Gen.KernelIdeal.Launch
import proofs.«427484_j7000796693090_1_alg».proof.Proof.Gen.KernelIdeal.Skeleton
import proofs.«427484_j7000796693090_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rBig1 : Rect S2000x128 := Rect.unit (s := S2000x128) ![0, 0] S2000x128.size inb_S2000x128_S2000x128_0_0
abbrev rRow1 : Rect S1x128 := Rect.unit (s := S1x128) ![0, 0] S1x128.size inb_S1x128_S1x128_0_0

def out1_5 (x0 : Vec F S2000x128 .f32) (x1 x2 x3 x4 : Vec F S1x128 .f32) : Vec F S2000x128 .f32 :=
  View.canon [⟨rBig1, k1_pay1 (View.ld x0 rBig1) (View.ld x1 rRow1) (View.ld x2 rRow1) (View.ld x3 rRow1) (View.ld x4 rRow1)⟩]

theorem cover1_5 (p0 : Vec F S2000x128 .f32) (y : S2000x128.Idx) :
    ∃ pc ∈ ([⟨rBig1, p0⟩] : List (View.Piece (Elt F) S2000x128 .f32)), y ∈ pc.1.set :=
  View.cover_of_tiled [⟨rBig1, p0⟩] S2000x128.size (by rfl) y

set_option maxHeartbeats 1000000 in
theorem sound_kernel1 (c : Dev nD) (E : Set ℕ) (i : grid1.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (x0 d : Vec F S2000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare d
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__normalize_relu_kernel i arg1 harg1 arg2 harg2 arg3 harg3 arg4 harg4 arg5 harg5 arg6 harg6) K := by
  simp only [cc1__normalize_relu_kernel_eq_skeleton]; unfold cc1__normalize_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl]
  dsimp only [dat1]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) _ (iblk1 V c 1 t) (iblk1 V c 2 t) (iblk1 V c 3 t) (iblk1 V c 4 t) _)
  iframe H0 H1 H2 H3 H4 H5
  iintro ⟨H0, H1, H2, H3, H4, H5⟩
  iframe

theorem body_obligation1 (c : Dev nD) : BodyObligation (dat1 (F := F) V c) (defs₀ (F := F)) Variants.none () Set.univ := fun t => by
  rw [bigSep_W1, bigSep_W1]
  exact sound_body1 V c t

theorem out1_5_eq (x0 : Vec F S2000x128 .f32) (x1 x2 x3 x4 : Vec F S1x128 .f32) :
    out1_5 x0 x1 x2 x3 x4 = k1_pay1 x0 x1 x2 x3 x4 := by
  have hz : (![0, 0] : Fin 2 → Nat) = fun _ => 0 := by funext a; fin_cases a <;> rfl
  unfold out1_5
  rw [View.canon_unit_zero hz, View.ld_unit_zero (S := S2000x128) hz, View.ld_unit_zero (S := S1x128) hz,
    View.ld_unit_zero (S := S1x128) hz, View.ld_unit_zero (S := S1x128) hz, View.ld_unit_zero (S := S1x128) hz]

end Cert.KernelIdeal.Hand

end
-- ==== Proof.KiReg3.lean ====
import proofs.«427484_j7000796693090_1_alg».proof.Proof.Gen.KernelIdeal.Launch
import proofs.«427484_j7000796693090_1_alg».proof.Proof.Gen.KernelIdeal.Skeleton
import proofs.«427484_j7000796693090_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rBig3 : Rect S2000x128 := Rect.unit (s := S2000x128) ![0, 0] S2000x128.size inb_S2000x128_S2000x128_0_0
abbrev rRow3 : Rect S1x128 := Rect.unit (s := S1x128) ![0, 0] S1x128.size inb_S1x128_S1x128_0_0

def out3_5 (x0 : Vec F S2000x128 .f32) (x1 x2 x3 x4 : Vec F S1x128 .f32) : Vec F S2000x128 .f32 :=
  View.canon [⟨rBig3, k3_pay1 (View.ld x0 rBig3) (View.ld x1 rRow3) (View.ld x2 rRow3) (View.ld x3 rRow3) (View.ld x4 rRow3)⟩]

theorem cover3_5 (p0 : Vec F S2000x128 .f32) (y : S2000x128.Idx) :
    ∃ pc ∈ ([⟨rBig3, p0⟩] : List (View.Piece (Elt F) S2000x128 .f32)), y ∈ pc.1.set :=
  View.cover_of_tiled [⟨rBig3, p0⟩] S2000x128.size (by rfl) y

set_option maxHeartbeats 1000000 in
theorem sound_kernel3 (c : Dev nD) (E : Set ℕ) (i : grid3.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (x0 d : Vec F S2000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare d
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__normalize_kernel i arg1 harg1 arg2 harg2 arg3 harg3 arg4 harg4 arg5 harg5 arg6 harg6) K := by
  simp only [cc3__normalize_kernel_eq_skeleton]; unfold cc3__normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_5 (c : Dev nD) (t : Fin cfg3.N) : (dat3 V c).after 5 t
    = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl
theorem before3_4 (c : Dev nD) (t : Fin cfg3.N) (d) : (dat3 V c).before 4 t d = iblk3 V c 4 t :=
  ((dat3 V c).before_in_eq_fetched 4 rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl]
  dsimp only [dat3]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) _ (iblk3 V c 1 t) (iblk3 V c 2 t) (iblk3 V c 3 t) (iblk3 V c 4 t) _)
  iframe H0 H1 H2 H3 H4 H5
  iintro ⟨H0, H1, H2, H3, H4, H5⟩
  iframe

theorem body_obligation3 (c : Dev nD) : BodyObligation (dat3 (F := F) V c) (defs₀ (F := F)) Variants.none () Set.univ := fun t => by
  rw [bigSep_W3, bigSep_W3]
  exact sound_body3 V c t

theorem out3_5_eq (x0 : Vec F S2000x128 .f32) (x1 x2 x3 x4 : Vec F S1x128 .f32) :
    out3_5 x0 x1 x2 x3 x4 = k3_pay1 x0 x1 x2 x3 x4 := by
  have hz : (![0, 0] : Fin 2 → Nat) = fun _ => 0 := by funext a; fin_cases a <;> rfl
  unfold out3_5
  rw [View.canon_unit_zero hz, View.ld_unit_zero (S := S2000x128) hz, View.ld_unit_zero (S := S1x128) hz,
    View.ld_unit_zero (S := S1x128) hz, View.ld_unit_zero (S := S1x128) hz, View.ld_unit_zero (S := S1x128) hz]

end Cert.KernelIdeal.Hand

end
-- ==== Proof.KiRun.lean ====
import proofs.«427484_j7000796693090_1_alg».proof.Proof.Gen.KernelIdeal.Launch
import proofs.«427484_j7000796693090_1_alg».proof.Proof.Gen.KernelIdeal.Regions
import proofs.«427484_j7000796693090_1_alg».proof.Proof.KiReg0
import proofs.«427484_j7000796693090_1_alg».proof.Proof.KiReg2
import proofs.«427484_j7000796693090_1_alg».proof.Proof.KiReg1
import proofs.«427484_j7000796693090_1_alg».proof.Proof.KiReg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev W0 (m : (ℓ : Loc nD τ sig) → Buf (Elt F) ℓ) (ρ : Dev nD → PrngReg) : Dev nD → Valuation τ sig (Elt F) := fun c b => m (c, b)

variable (m : (ℓ : Loc nD τ sig) → Buf (Elt F) ℓ) (ρ : Dev nD → PrngReg)

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N :=
  Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) :=
  Pipeline.withArrays_of_ne spec1 c _ _ b hb

abbrev W5 : Dev nD → Valuation τ sig (Elt F) := fun c => StableHlo.after hostOps2 (W4 m ρ c)
abbrev W6 : Dev nD → Valuation τ sig (Elt F) := fun c => StableHlo.after hostOps2_1 (W5 m ρ c)
abbrev W7 : Dev nD → Valuation τ sig (Elt F) := fun c => StableHlo.after hostOps2_2 (W6 m ρ c)
abbrev V7 : (c : Dev nD) → (b : Ref sig .tc) → Buf (Elt F) ((c : Thread nD τ).loc b) := fun c b => W7 m ρ c b
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N :=
  Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) :=
  Pipeline.withArrays_of_ne spec2 c _ _ b hb

abbrev W9 : Dev nD → Valuation τ sig (Elt F) := fun c => StableHlo.after hostOps3 (W8 m ρ c)
abbrev V9 : (c : Dev nD) → (b : Ref sig .tc) → Buf (Elt F) ((c : Thread nD τ).loc b) := fun c b => W9 m ρ c b
def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N :=
  Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) :=
  Pipeline.withArrays_of_ne spec3 c _ _ b hb

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W6_of (c : Dev nD) (r : Ref sig .tc) (h : r ∉ hostOps2_1_W) : W6 m ρ c (Proc.devRef .tc r) = W5 m ρ c (Proc.devRef .tc r) :=
  StableHlo.after_of_writes_sub hostOps2_1 _ hostOps2_1_writes h
theorem W7_of (c : Dev nD) (r : Ref sig .tc) (h : r ∉ hostOps2_2_W) : W7 m ρ c (Proc.devRef .tc r) = W6 m ρ c (Proc.devRef .tc r) :=
  StableHlo.after_of_writes_sub hostOps2_2 _ hostOps2_2_writes h
theorem W9_of (c : Dev nD) (r : Ref sig .tc) (h : r ∉ hostOps3_W) : W9 m ρ c (Proc.devRef .tc r) = W8 m ρ c (Proc.devRef .tc r) :=
  StableHlo.after_of_writes_sub hostOps3 _ hostOps3_writes h

/-- No output window of the launch has `r` for its array. -/
abbrev keeps (cfg : Cfg sig Λ₀) (r : Ref sig .tc) : Prop := ∀ w, Pipeline.arrRef cfg.spec w = r → (cfg.win w).isOut = false

-- a launch leaves an array that is not one of its outputs, and every buffer that is not one of its arrays, as entered
theorem withArrays_kept {cfg : Cfg sig Λ₀} {c : Dev nD} (dat : Dat τ (Elt F) Unit ℕ (UR sig nD τ) ℕ cfg c) (V : Valuation τ sig (Elt F))
    (hinj : Function.Injective (Pipeline.arrRef cfg.spec)) (hA : ∀ w, dat.A w = V (Proc.devRef .tc (Pipeline.arrRef cfg.spec w)))
    (r : Ref sig .tc) (hk : keeps cfg r) :
    Pipeline.withArrays cfg.spec c V (fun w => dat.arrAt w cfg.N) (Proc.devRef .tc r) = V (Proc.devRef .tc r) := by
  by_cases h : ∃ w, Pipeline.arrRef cfg.spec w = r
  · obtain ⟨w, rfl⟩ := h
    rw [Pipeline.withArrays_arr _ hinj, dat.arrAt_in w (hk w rfl), hA]
  · exact Pipeline.withArrays_of_ne _ c V _ r fun w e => h ⟨w, e⟩

-- the last four stretches do not write `r` and the last two launches keep it
theorem W10_eq_W4 (c : Dev nD) (r : Ref sig .tc)
    (h : r ∉ hostOps2_W ∧ r ∉ hostOps2_1_W ∧ r ∉ hostOps2_2_W ∧ keeps cfg2 r ∧ r ∉ hostOps3_W ∧ keeps cfg3 r) :
    W10 m ρ c (Proc.devRef .tc r) = W4 m ρ c (Proc.devRef .tc r) :=
  (withArrays_kept (dat3 (V9 m ρ) c) _ launch3.win.arr_inj (A_eq3 _ c) r h.2.2.2.2.2).trans <| (W9_of m ρ c r h.2.2.2.2.1).trans <|
  (withArrays_kept (dat2 (V7 m ρ) c) _ launch2.win.arr_inj (A_eq2 _ c) r h.2.2.2.1).trans <| (W7_of m ρ c r h.2.2.1).trans <|
  (W6_of m ρ c r h.2.1).trans (W5_of m ρ c r h.1)

-- a buffer that no stretch writes and every launch keeps ends as launched
theorem W10_kept (c : Dev nD) (r : Ref sig .tc)
    (h : (r ∉ hostOps0_W ∧ keeps cfg0 r ∧ r ∉ hostOps1_W ∧ keeps cfg1 r)
      ∧ r ∉ hostOps2_W ∧ r ∉ hostOps2_1_W ∧ r ∉ hostOps2_2_W ∧ keeps cfg2 r ∧ r ∉ hostOps3_W ∧ keeps cfg3 r) :
    W10 m ρ c (Proc.devRef .tc r) = m ((c : Thread nD τ).loc r) :=
  (W10_eq_W4 m ρ c r h.2).trans <|
  (withArrays_kept (dat1 (V3 m ρ) c) _ launch1.win.arr_inj (A_eq1 _ c) r h.1.2.2.2).trans <| (W3_of m ρ c r h.1.2.2.1).trans <|
  (withArrays_kept (dat0 (V1 m ρ) c) _ launch0.win.arr_inj (A_eq0 _ c) r h.1.2.1).trans (W1_of m ρ c r h.1.1)

theorem W10_feat (c : Dev nD) : W10 m ρ c (Proc.devRef .tc main_v13) = (dat1 (V3 m ρ) c).arrAt 5 cfg1.N :=
  (W10_eq_W4 m ρ c main_v13 (by decide)).trans (W4_arr m ρ c 5)
theorem W10_out (c : Dev nD) : W10 m ρ c (Proc.devRef .tc main_v38) = (dat3 (V9 m ρ) c).arrAt 5 cfg3.N :=
  W10_arr m ρ c 5

def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V7 m ρ) c
  | ⟨3, _⟩ => fun c => dat3 (V9 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op (List.forall_iff_forall_mem.mp hsub op h)) (List.forall_iff_forall_mem.mp hfresh) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m ρ c) ∗ ∃ r, prngReg c r)

/-- Launch `p` takes the memory `Wi` to `Wo`: `Wo` has the launch's arrays at their final contents and agrees with `Wi` elsewhere. -/
def reg (p : Fin 4) (lf : Pipeline.LaunchFacts (nD := nD) (τ := τ) cfgs p) (Wi Wo : Dev nD → Valuation τ sig (Elt F))
    (hA : ∀ c w, (pdats m ρ p c).A w = Wi c (Proc.devRef .tc (Pipeline.arrRef (cfgs p).spec w)))
    (hq : ∀ c w, (pdats m ρ p c).q w = fullShare) (hw : ∀ c t, (pdats m ρ p c).owed t = 0)
    (hr : ∀ c, (pdats m ρ p c).recorded 0 = Set.univ)
    (hb : ∀ c, BodyObligation (pdats m ρ p c) (defs₀ (F := F)) 𝒱₀ () Set.univ)
    (hi : ∀ c, (Pipeline.ΦA (cfgs p).spec c : sProp 𝕄) ⊢ (pdats m ρ p c).Φ 0)
    (hx : ∀ c, (pdats m ρ p c).Φ (Fin.last _) ⊢ (Pipeline.ΦA (cfgs p).spec c : sProp 𝕄))
    (hF : ∀ c w, Wo c (Proc.devRef .tc (Pipeline.arrRef (cfgs p).spec w)) = (pdats m ρ p c).arrAt w (cfgs p).N)
    (hne : ∀ c (b : Ref sig .tc), (∀ w, Pipeline.arrRef (cfgs p).spec w ≠ b) → Wo c (Proc.devRef .tc b) = Wi c (Proc.devRef .tc b)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p hw
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (cfgs p).spec c fun b => Wi c b
  hentry c := by
    have hsplit := Pipeline.arrays_of_unscopedBufs (p := p) pcfgs adm (pdats m ρ) lf.win lf.arr_whole c
      ((pdats m ρ p c).share_full (hq c)) (fun b => Wi c b) (hA c)
    rw [Pipeline.unscopedBufs_held] at hsplit
    unfold Pipeline.Dat.owesAt Pipeline.owesWithin Pipeline.prefHeld
    rw [hw c, show (Finset.univ : Finset (Fin 0)) = ∅ from rfl, BI.bigSep_empty]
    iintro ⟨⟨Hub, Hp, %W, HO⟩, -, -⟩
    ihave H := hsplit $$ Hub
    icases H with ⟨Ha, Hrest⟩
    imodintro
    iframe
    isplitr; · iempintro
    iexists W; iframe
    ipureintro; exact fun _ _ => Or.inl (hr c ▸ trivial)
  hin c := by
    refine BIBase.Entails.trans ?_ (hi c)
    unfold Pipeline.ΦA
    iintro ⟨Hp, -, Hr⟩
    iframe
  hout c := by
    rw [Pipeline.ownSems0_none]
    refine BIBase.Entails.trans (hx c) ?_
    unfold Pipeline.ΦA
    iintro ⟨Hr, Hp⟩
    iframe; iempintro
  hexit c := by
    have hjoin := Pipeline.unscopedBufs_of_arrays (p := p) pcfgs adm
      lf.win lf.arr_whole c (pdats m ρ) ((pdats m ρ p c).share_full (hq c))
      (fun b => Wi c b) (fun b => Wo c b) ((pdats m ρ p c).arrAt · (cfgs p).N) (fun w => (hF c w).symm)
      fun b hb => hne c b fun w e => hb (Finset.mem_image.mpr ⟨w, Finset.mem_univ _, e⟩)
    rw [Pipeline.unscopedBufs_held] at hjoin
    unfold Pipeline.Dat.owesAt Pipeline.owesWithin; rw [hw c]
    iintro ⟨Ha, ⟨%W, -, HO⟩, HY, Hrest⟩
    imodintro
    isplitl [Ha Hrest]
    · iapply hjoin; iframe
    isplitl [HY]; · iexact HY
    iexists W; iexact HO

abbrev segs : List (Pipeline.Seg (pcfgs (F := F)) adm (pdats m ρ) () defs₀ 𝒱₀ L lv) :=
  [ .host (hseg hostOps0 hostOps0_sub hostOps0_fresh (W0 m ρ)),
    .region (reg m ρ 0 launch0 (W1 m ρ) (W2 m ρ) (A_eq0 _) (fun _ _ => rfl) (fun _ _ => rfl) (fun _ => rfl)
      (body_obligation0 _) (hin0 _) (hout0 _) (W2_arr m ρ) (W2_of_ne m ρ)),
    .host (hseg hostOps1 hostOps1_sub hostOps1_fresh (W2 m ρ)),
    .region (reg m ρ 1 launch1 (W3 m ρ) (W4 m ρ) (A_eq1 _) (fun _ _ => rfl) (fun _ _ => rfl) (fun _ => rfl)
      (body_obligation1 _) (fun _ => .rfl) (fun _ => .rfl) (W4_arr m ρ) (W4_of_ne m ρ)),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)),
    .region (reg m ρ 2 launch2 (W7 m ρ) (W8 m ρ) (A_eq2 _) (fun _ _ => rfl) (fun _ _ => rfl) (fun _ => rfl)
      (body_obligation2 _) (hin2 _) (hout2 _) (W8_arr m ρ) (W8_of_ne m ρ)),
    .host (hseg hostOps3 hostOps3_sub hostOps3_fresh (W8 m ρ)),
    .region (reg m ρ 3 launch3 (W9 m ρ) (W10 m ρ) (A_eq3 _) (fun _ _ => rfl) (fun _ _ => rfl) (fun _ => rfl)
      (body_obligation3 _) (fun _ => .rfl) (fun _ => .rfl) (W10_arr m ρ) (W10_of_ne m ρ)) ]

theorem run : θ_run defs (onTc (τ := τ) (main (F := F))) ⟨m, fun _ => 0, ρ⟩
    (fun r => ∀ c : Dev nD, ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_chain c, Pipeline.Seg.run_eq_chain]; exact .rfl)
    (by simp only [segs, Pipeline.Seg.pipes_host, Pipeline.Seg.pipes_region, Pipeline.Seg.pipes_nil]; decide)
    (O₀ := 0) (hL := fun _ _ => rfl) (G := fun _ => BI.emp)
    (hu₀ := by
      rw [BI.bigSep_emp_const, ownU_emb₁]; iintro Hu; imodintro
      isplitl [Hu]; · iexact Hu
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => sep_assoc'⟩)
    (hinit := by
      refine Pipeline.initEach L lv fun c => ?_
      rw [Pipeline.unscopedBufs_held c (W0 m ρ c)]
      iintro ⟨⟨Hh, -, HO, -, Hp, -⟩, -⟩
      imodintro; iframe
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      iframe)
    (hQ := fun s h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => by
    refine ⟨?_, ?_, ?_, ?_, ?_, ?_, ?_, ?_, ?_, ?_, ?_⟩ <;>
      exact (h c _ (mem_uc _ (by decide))).trans (W10_kept m ρ c _ (by decide))) (run m ρ)

end Cert.KernelIdeal.Hand

end
-- ==== Proof.LibDenseLayer.lean ====
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

section Product
variable {m k n : ℕ}

abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

section Bias
variable {α : Type} {a b : ℕ}

theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

def elu (x : EReal) : EReal := Scalar.select (Ideal.cmp .ogt x 0) x (Ideal.exp x - 1)

theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

section Spellings
variable {s : Shape}

theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.LibBlockSums.lean ====
import Mathlib.Algebra.BigOperators.Group.Finset.Basic
import Mathlib.Algebra.BigOperators.Fin
import Mathlib.Data.Fintype.BigOperators

namespace Idealize.ShloMosaic.BlockSums

open Finset

variable {M : Type*} [AddCommMonoid M]

theorem sum_blocks (f : ℕ → M) (B : ℕ) : ∀ T : ℕ,
    ∑ t ∈ range T, ∑ j : Fin B, f (B * t + j.val) = ∑ n ∈ range (T * B), f n
  | 0 => by simp
  | T + 1 => by
    rw [sum_range_succ, sum_blocks f B T, Nat.succ_mul, sum_range_add,
      Fin.sum_univ_eq_sum_range (fun j => f (B * T + j)) B, Nat.mul_comm B T]

theorem sum_range_pad (f : ℕ → M) (N P : ℕ) (h : ∀ n, N ≤ n → f n = 0) :
    ∑ n ∈ range (N + P), f n = ∑ n ∈ range N, f n := by
  rw [sum_range_add, sum_eq_zero (fun x _ => h _ (Nat.le_add_right _ _)), add_zero]

theorem sum_blocks_pad (f : ℕ → M) (B T N P : ℕ) (hTB : T * B = N + P) (h : ∀ n, N ≤ n → f n = 0) :
    ∑ t ∈ range T, ∑ j : Fin B, f (B * t + j.val) = ∑ n : Fin N, f n.val := by
  rw [sum_blocks f B T, hTB, sum_range_pad f N P h, Fin.sum_univ_eq_sum_range]

end Idealize.ShloMosaic.BlockSums
-- ==== Proof.KVal0.lean ====
import proofs.«427484_j7000796693090_1_alg».proof.Proof.KiReg0
import proofs.«427484_j7000796693090_1_alg».proof.Proof.Spec
import proofs.«427484_j7000796693090_1_alg».proof.Proof.LibDenseLayer
import proofs.«427484_j7000796693090_1_alg».proof.Proof.LibBlockSums
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)

theorem proj_apply (x : Vec Ideal S2000x48 .f32) (w : Vec Ideal S128x48 .f32) (b : Vec Ideal S1x128 .f32) (p : Fin 2000) (k : Fin 128) :
    k0_pay3 (F := Ideal) x w b (ix2 p k) = (∑ l : Fin 48, x (ix2 p l) * w (ix2 k l)) + b (ix2 (0 : Fin 1) k) := by
  unfold k0_pay3
  refine (addf_apply _ _ (ix2 p k)).trans ?_
  refine congrArg₂ (· + ·) ?_ ?_
  · refine (DenseLayer.matmul_rows_apply dot_S2000x48_S48x128_S2000x128_1_0_0_1_n_n_wf none _ _ p k).trans ?_
    refine Finset.sum_congr rfl fun l _ => ?_
    refine congrArg₂ (· * ·) rfl ?_
    exact transpose_ix2_apply _ transposes_S128x48_p1_0_S48x128 l k
  · refine (broadcastTo_1b_ab_apply _ broadcasts_S1x128_S2000x128 p k).trans ?_
    rw [shapeCast_self]

theorem lift_col0 (k : Fin 128) (p : Fin 2000) : reduces_S2000x128_S128.lift (ix1 k) p = ix2 p k := by
  funext ax; apply Fin.ext
  match ax with
  | ⟨0, _⟩ => rfl
  | ⟨1, _⟩ => rfl

theorem colsum_apply (h : Vec Ideal S2000x128 .f32) (hacc : (0x00000000#32 : BitVec 32) = 0x00000000#32) (k : Fin 128) :
    multiReduction (F := Ideal) .add [0] S128 h 0x00000000#32 reduces_S2000x128_S128 (.inl rfl) hacc (ix1 k)
      = ∑ p : Fin 2000, h (ix2 p k) := by
  refine (Ideal.multiReduction_add_single h 0x00000000#32 reduces_S2000x128_S128 (.inl rfl) hacc (ix1 k)).trans ?_
  show ∑ p : Fin 2000, h (reduces_S2000x128_S128.lift (ix1 k) p) = _
  exact Finset.sum_congr rfl fun p _ => congrArg h (lift_col0 k p)

theorem sum_step_apply (x : Vec Ideal S2000x48 .f32) (w : Vec Ideal S128x48 .f32) (b s : Vec Ideal S1x128 .f32) (u : Fin 1) (k : Fin 128) :
    k0_pay4 (F := Ideal) x w b s (ix2 u k) = s (ix2 u k) + ∑ p : Fin 2000, k0_pay3 (F := Ideal) x w b (ix2 p k) := by
  unfold k0_pay4
  rw [shapeCast_self]
  refine (addf_apply _ _ (ix2 u k)).trans ?_
  refine congrArg₂ (· + ·) rfl ?_
  refine (shapeCast_a_1a_apply _ shapeCasts_S128_S1x128 u k).trans ?_
  exact colsum_apply _ rfl k

theorem sumsq_step_apply (x : Vec Ideal S2000x48 .f32) (w : Vec Ideal S128x48 .f32) (b s : Vec Ideal S1x128 .f32) (u : Fin 1) (k : Fin 128) :
    k0_pay5 (F := Ideal) x w b s (ix2 u k)
      = s (ix2 u k) + ∑ p : Fin 2000, k0_pay3 (F := Ideal) x w b (ix2 p k) * k0_pay3 (F := Ideal) x w b (ix2 p k) := by
  unfold k0_pay5
  rw [shapeCast_self]
  refine (addf_apply _ _ (ix2 u k)).trans ?_
  refine congrArg₂ (· + ·) rfl ?_
  refine (shapeCast_a_1a_apply _ shapeCasts_S128_S1x128 u k).trans ?_
  refine (colsum_apply _ rfl k).trans ?_
  rfl

theorem zero_row_apply (u : Fin 1) (k : Fin 128) : k0_pay1 (F := Ideal) (ix2 u k) = 0 := by
  unfold k0_pay1
  rw [shapeCast_self]
  exact Ideal.ofBits_zero_f32
theorem zero_row_apply' (u : Fin 1) (k : Fin 128) : k0_pay2 (F := Ideal) (ix2 u k) = 0 := by
  unfold k0_pay2
  rw [shapeCast_self]
  exact Ideal.ofBits_zero_f32

variable (V : (c : Dev nD) → (b : Ref sig .tc) → Buf (Elt Ideal) ((c : Thread nD τ).loc b))

abbrev xs (c : Dev nD) : Cert.Spec.Rows 48 := fun r l => V c main_arg0 (ix2 r l)
abbrev w1 (c : Dev nD) : Cert.Spec.Wgt 48 := fun k l => V c main_arg2 (ix2 k l)
abbrev b1 (c : Dev nD) : Cert.Spec.Vec128 := fun k => V c main_v0 (ix2 (0 : Fin 1) k)

abbrev xblk (c : Dev nD) (t : Fin cfg0.N) : Vec Ideal S2000x48 .f32 := iblk0 V c 0 t
abbrev wblk (c : Dev nD) (t : Fin cfg0.N) : Vec Ideal S128x48 .f32 := iblk0 V c 1 t
abbrev bblk (c : Dev nD) (t : Fin cfg0.N) : Vec Ideal S1x128 .f32 := iblk0 V c 2 t

theorem block_index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem point_lt (t : Fin cfg0.N) : t.val < 50 := lt_of_lt_of_eq t.isLt N_0

theorem xblk_apply (c : Dev nD) (t : Fin cfg0.N) (p : Fin 2000) (l : Fin 48) (hr : 2000 * t.val + p.val < 100000) :
    xblk V c t (ix2 p l) = V c main_arg0 (ix2 ⟨2000 * t.val + p.val, hr⟩ l) := by
  show V c main_arg0 (((cfg0.win 0).blk t).view.emb (ix2 p l)) = _
  refine congrArg _ ?_
  obtain ⟨e0, e1, -⟩ := block_index0 t
  funext a; apply Fin.ext
  match a with
  | ⟨0, _⟩ => show win0_0.index t (0 : Fin 2) * 2000 + 1 * p.val = 2000 * t.val + p.val; omega
  | ⟨1, _⟩ => show win0_0.index t (1 : Fin 2) * 48 + 1 * l.val = l.val; omega

theorem wblk_apply (c : Dev nD) (t : Fin cfg0.N) (k : Fin 128) (l : Fin 48) :
    wblk V c t (ix2 k l) = V c main_arg2 (ix2 k l) := by
  show V c main_arg2 (((cfg0.win 1).blk t).view.emb (ix2 k l)) = _
  refine congrArg _ ?_
  obtain ⟨-, -, e2, e3, -⟩ := block_index0 t
  funext a; apply Fin.ext
  match a with
  | ⟨0, _⟩ => show win0_1.index t (0 : Fin 2) * 128 + 1 * k.val = k.val; omega
  | ⟨1, _⟩ => show win0_1.index t (1 : Fin 2) * 48 + 1 * l.val = l.val; omega

theorem bblk_apply (c : Dev nD) (t : Fin cfg0.N) (u : Fin 1) (k : Fin 128) :
    bblk V c t (ix2 u k) = V c main_v0 (ix2 (0 : Fin 1) k) := by
  show V c main_v0 (((cfg0.win 2).blk t).view.emb (ix2 u k)) = _
  refine congrArg _ ?_
  obtain ⟨-, -, -, -, e4, e5, -⟩ := block_index0 t
  funext a; apply Fin.ext
  match a with
  | ⟨0, _⟩ => show win0_2.index t (0 : Fin 2) * 1 + 1 * u.val = 0; omega
  | ⟨1, _⟩ => show win0_2.index t (1 : Fin 2) * 128 + 1 * k.val = k.val; omega

theorem hblk0_apply (c : Dev nD) (t : Fin cfg0.N) (p : Fin 2000) (k : Fin 128) (hr : 2000 * t.val + p.val < 100000) :
    hblk0 V c t (ix2 p k) = Cert.Spec.dense (xs V c) (w1 V c) (b1 V c) ⟨2000 * t.val + p.val, hr⟩ k := by
  refine (proj_apply (xblk V c t) (wblk V c t) (bblk V c t) p k).trans ?_
  unfold Cert.Spec.dense
  exact congrArg₂ (· + ·)
    (Finset.sum_congr rfl fun l _ => congrArg₂ (· * ·) (xblk_apply V c t p l hr) (wblk_apply V c t k l))
    (bblk_apply V c t 0 k)

abbrev projArr (c : Dev nD) : S100000x128.Idx → EReal := fun i => Cert.Spec.dense (xs V c) (w1 V c) (b1 V c) (i 0) (i 1)

theorem flushed0_3_eq (c : Dev nD) (t : Fin cfg0.N) :
    (dat0 V c).flushed 3 t = ((cfg0.win 3).blk t).view.read (Elt Ideal) (projArr V c) := by
  show (cfg0.win 3).cut (grid0.coords t) ((dat0 V c).after 3 t) = _
  rw [after0_3]
  funext j
  obtain ⟨p, k, rfl⟩ : ∃ (p : Fin 2000) (k : Fin 128), j = ix2 p k := ⟨j 0, j 1, eq_ix2 j⟩
  have hr : 2000 * t.val + p.val < 100000 := by have := point_lt t; have := p.isLt; omega
  show hblk0 V c t (ix2 p k) = projArr V c (((cfg0.win 3).blk t).view.emb (ix2 p k))
  refine (hblk0_apply V c t p k hr).trans ?_
  obtain ⟨-, -, -, -, -, -, e6, e7, -⟩ := block_index0 t
  have h0 : ((cfg0.win 3).blk t).view.emb (ix2 p k) 0 = (⟨2000 * t.val + p.val, hr⟩ : Fin 100000) :=
    Fin.ext (by show win0_3.index t (0 : Fin 2) * 2000 + 1 * p.val = 2000 * t.val + p.val; omega)
  have h1 : ((cfg0.win 3).blk t).view.emb (ix2 p k) 1 = k :=
    Fin.ext (by show win0_3.index t (1 : Fin 2) * 128 + 1 * k.val = k.val; omega)
  show _ = Cert.Spec.dense (xs V c) (w1 V c) (b1 V c) (((cfg0.win 3).blk t).view.emb (ix2 p k) 0) (((cfg0.win 3).blk t).view.emb (ix2 p k) 1)
  rw [h0, h1]

theorem cover0_3 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hq : (i 0).val / 2000 < cfg0.N := lt_of_lt_of_eq (show (i 0).val / 2000 < 50 by omega) N_0.symm
  refine ⟨⟨(i 0).val / 2000, hq⟩, flush0_3 _, ?_⟩
  show i ∈ ((View.whole main_v6_0).slice (win0_3.rect ⟨(i 0).val / 2000, hq⟩)).set
  rw [View.set_slice_whole, Rect.mem_set_unit]
  obtain ⟨-, -, -, -, -, -, e6, e7, -⟩ := block_index0 ⟨(i 0).val / 2000, hq⟩
  have e6' : win0_3.index ⟨(i 0).val / 2000, hq⟩ (0 : Fin 2) = (i 0).val / 2000 := e6
  intro a
  match a with
  | ⟨0, _⟩ =>
    show win0_3.index ⟨(i 0).val / 2000, hq⟩ (0 : Fin 2) * 2000 ≤ (i 0).val ∧ (i 0).val < win0_3.index ⟨(i 0).val / 2000, hq⟩ (0 : Fin 2) * 2000 + 2000
    omega
  | ⟨1, _⟩ =>
    show win0_3.index ⟨(i 0).val / 2000, hq⟩ (1 : Fin 2) * 128 ≤ (i 1).val ∧ (i 1).val < win0_3.index ⟨(i 0).val / 2000, hq⟩ (1 : Fin 2) * 128 + 128
    omega

theorem final0_3 (c : Dev nD) : (dat0 V c).arrAt 3 cfg0.N = projArr V c :=
  (dat0 V c).arrAt_eq_of_cover 3 (projArr V c) (fun t _ => flushed0_3_eq V c t) cover0_3

theorem last_lt : 49 < cfg0.N := lt_of_lt_of_eq (by decide : 49 < 50) N_0.symm

def colSeq (c : Dev nD) (k : Fin 128) : ℕ → EReal :=
  fun n => if h : n < 100000 then Cert.Spec.dense (xs V c) (w1 V c) (b1 V c) ⟨n, h⟩ k else 0
def colSeqSq (c : Dev nD) (k : Fin 128) : ℕ → EReal :=
  fun n => if h : n < 100000 then Cert.Spec.dense (xs V c) (w1 V c) (b1 V c) ⟨n, h⟩ k * Cert.Spec.dense (xs V c) (w1 V c) (b1 V c) ⟨n, h⟩ k else 0

theorem blk_colsum (c : Dev nD) (t : Fin cfg0.N) (k : Fin 128) :
    ∑ p : Fin 2000, hblk0 V c t (ix2 p k) = ∑ j : Fin 2000, colSeq V c k (2000 * t.val + j.val) := by
  refine Finset.sum_congr rfl fun p _ => ?_
  have hr : 2000 * t.val + p.val < 100000 := by have := point_lt t; have := p.isLt; omega
  rw [hblk0_apply V c t p k hr]
  unfold colSeq
  rw [dif_pos hr]

theorem blk_colsumsq (c : Dev nD) (t : Fin cfg0.N) (k : Fin 128) :
    ∑ p : Fin 2000, hblk0 V c t (ix2 p k) * hblk0 V c t (ix2 p k) = ∑ j : Fin 2000, colSeqSq V c k (2000 * t.val + j.val) := by
  refine Finset.sum_congr rfl fun p _ => ?_
  have hr : 2000 * t.val + p.val < 100000 := by have := point_lt t; have := p.isLt; omega
  rw [hblk0_apply V c t p k hr]
  unfold colSeqSq
  rw [dif_pos hr]

theorem acc0_apply (c : Dev nD) : ∀ (n : ℕ) (hn : n < cfg0.N) (u : Fin 1) (k : Fin 128),
    (acc0 V c n hn).1 (ix2 u k) = ∑ s ∈ Finset.range (n + 1), ∑ j : Fin 2000, colSeq V c k (2000 * s + j.val)
    ∧ (acc0 V c n hn).2 (ix2 u k) = ∑ s ∈ Finset.range (n + 1), ∑ j : Fin 2000, colSeqSq V c k (2000 * s + j.val)
  | 0, hn, u, k => by
    rw [acc0_zero]
    dsimp only
    rw [Finset.sum_range_one, Finset.sum_range_one]
    constructor
    · refine (sum_step_apply (xblk V c ⟨0, hn⟩) (wblk V c ⟨0, hn⟩) (bblk V c ⟨0, hn⟩) (k0_pay1 (F := Ideal)) u k).trans ?_
      rw [zero_row_apply, zero_add]
      exact blk_colsum V c ⟨0, hn⟩ k
    · refine (sumsq_step_apply (xblk V c ⟨0, hn⟩) (wblk V c ⟨0, hn⟩) (bblk V c ⟨0, hn⟩) (k0_pay2 (F := Ideal)) u k).trans ?_
      rw [zero_row_apply', zero_add]
      exact blk_colsumsq V c ⟨0, hn⟩ k
  | n + 1, hn, u, k => by
    obtain ⟨ih1, ih2⟩ := acc0_apply c n (Nat.lt_of_succ_lt hn) u k
    rw [acc0_succ]
    dsimp only
    rw [Finset.sum_range_succ _ (n + 1), Finset.sum_range_succ _ (n + 1)]
    constructor
    · refine (sum_step_apply (xblk V c ⟨n + 1, hn⟩) (wblk V c ⟨n + 1, hn⟩) (bblk V c ⟨n + 1, hn⟩)
        (acc0 V c n (Nat.lt_of_succ_lt hn)).1 u k).trans ?_
      exact congrArg₂ (· + ·) ih1 (blk_colsum V c ⟨n + 1, hn⟩ k)
    · refine (sumsq_step_apply (xblk V c ⟨n + 1, hn⟩) (wblk V c ⟨n + 1, hn⟩) (bblk V c ⟨n + 1, hn⟩)
        (acc0 V c n (Nat.lt_of_succ_lt hn)).2 u k).trans ?_
      exact congrArg₂ (· + ·) ih2 (blk_colsumsq V c ⟨n + 1, hn⟩ k)

theorem sum_all_blocks (f : ℕ → EReal) :
    ∑ s ∈ Finset.range (49 + 1), ∑ j : Fin 2000, f (2000 * s + j.val) = ∑ r : Fin 100000, f r.val := by
  rw [BlockSums.sum_blocks f 2000 (49 + 1), Fin.sum_univ_eq_sum_range f 100000]

theorem eq_last_of_flush {t : Fin cfg0.N} (h : t.val % 50 = 49) : t.val = 49 := by have := point_lt t; omega

theorem acc0_congr (c : Dev nD) (n : ℕ) (hn : n < cfg0.N) (e : n = 49) : acc0 V c n hn = acc0 V c 49 last_lt := by
  subst e; rfl

theorem flushed0_4_eq (c : Dev nD) (t : Fin cfg0.N) (hf : (cfg0.win 4).flush t = true) :
    (dat0 V c).flushed 4 t = ((cfg0.win 4).blk t).view.read (Elt Ideal) (acc0 V c 49 last_lt).1 := by
  show (cfg0.win 4).cut (grid0.coords t) ((dat0 V c).after 4 t) = _
  rw [after0_4, acc0_congr V c t.val t.isLt (eq_last_of_flush ((flush0_4 t).mp hf))]
  funext j
  show (acc0 V c 49 last_lt).1 j = (acc0 V c 49 last_lt).1 (((cfg0.win 4).blk t).view.emb j)
  refine congrArg _ ?_
  obtain ⟨-, -, -, -, -, -, -, -, e8, e9, -⟩ := block_index0 t
  funext a; apply Fin.ext
  match a with
  | ⟨0, _⟩ => show (j 0).val = win0_4.index t (0 : Fin 2) * 1 + 1 * (j 0).val; omega
  | ⟨1, _⟩ => show (j 1).val = win0_4.index t (1 : Fin 2) * 128 + 1 * (j 1).val; omega

theorem flushed0_5_eq (c : Dev nD) (t : Fin cfg0.N) (hf : (cfg0.win 5).flush t = true) :
    (dat0 V c).flushed 5 t = ((cfg0.win 5).blk t).view.read (Elt Ideal) (acc0 V c 49 last_lt).2 := by
  show (cfg0.win 5).cut (grid0.coords t) ((dat0 V c).after 5 t) = _
  rw [after0_5, acc0_congr V c t.val t.isLt (eq_last_of_flush ((flush0_5 t).mp hf))]
  funext j
  show (acc0 V c 49 last_lt).2 j = (acc0 V c 49 last_lt).2 (((cfg0.win 5).blk t).view.emb j)
  refine congrArg _ ?_
  obtain ⟨-, -, -, -, -, -, -, -, -, -, e10, e11⟩ := block_index0 t
  funext a; apply Fin.ext
  match a with
  | ⟨0, _⟩ => show (j 0).val = win0_5.index t (0 : Fin 2) * 1 + 1 * (j 0).val; omega
  | ⟨1, _⟩ => show (j 1).val = win0_5.index t (1 : Fin 2) * 128 + 1 * (j 1).val; omega

theorem cover0_4 (i : S1x128.Idx) : ∃ t : Fin cfg0.N, (cfg0.win 4).flush t = true ∧ i ∈ ((cfg0.win 4).blk t).view.set := by
  have hi0 : (i 0).val < 1 := (i 0).isLt
  have hi1 : (i 1).val < 128 := (i 1).isLt
  refine ⟨⟨49, last_lt⟩, (flush0_4 _).mpr (by decide), ?_⟩
  show i ∈ ((View.whole main_v6_1).slice (win0_4.rect ⟨49, last_lt⟩)).set
  rw [View.set_slice_whole, Rect.mem_set_unit]
  obtain ⟨-, -, -, -, -, -, -, -, e8, e9, -⟩ := block_index0 ⟨49, last_lt⟩
  intro a
  match a with
  | ⟨0, _⟩ =>
    show win0_4.index ⟨49, last_lt⟩ (0 : Fin 2) * 1 ≤ (i 0).val ∧ (i 0).val < win0_4.index ⟨49, last_lt⟩ (0 : Fin 2) * 1 + 1
    omega
  | ⟨1, _⟩ =>
    show win0_4.index ⟨49, last_lt⟩ (1 : Fin 2) * 128 ≤ (i 1).val ∧ (i 1).val < win0_4.index ⟨49, last_lt⟩ (1 : Fin 2) * 128 + 128
    omega

theorem cover0_5 (i : S1x128.Idx) : ∃ t : Fin cfg0.N, (cfg0.win 5).flush t = true ∧ i ∈ ((cfg0.win 5).blk t).view.set := by
  have hi0 : (i 0).val < 1 := (i 0).isLt
  have hi1 : (i 1).val < 128 := (i 1).isLt
  refine ⟨⟨49, last_lt⟩, (flush0_5 _).mpr (by decide), ?_⟩
  show i ∈ ((View.whole main_v6_2).slice (win0_5.rect ⟨49, last_lt⟩)).set
  rw [View.set_slice_whole, Rect.mem_set_unit]
  obtain ⟨-, -, -, -, -, -, -, -, -, -, e10, e11⟩ := block_index0 ⟨49, last_lt⟩
  intro a
  match a with
  | ⟨0, _⟩ =>
    show win0_5.index ⟨49, last_lt⟩ (0 : Fin 2) * 1 ≤ (i 0).val ∧ (i 0).val < win0_5.index ⟨49, last_lt⟩ (0 : Fin 2) * 1 + 1
    omega
  | ⟨1, _⟩ =>
    show win0_5.index ⟨49, last_lt⟩ (1 : Fin 2) * 128 ≤ (i 1).val ∧ (i 1).val < win0_5.index ⟨49, last_lt⟩ (1 : Fin 2) * 128 + 128
    omega

theorem final0_4 (c : Dev nD) : (dat0 V c).arrAt 4 cfg0.N = (acc0 V c 49 last_lt).1 :=
  (dat0 V c).arrAt_eq_of_cover 4 (acc0 V c 49 last_lt).1 (fun t hf => flushed0_4_eq V c t hf) cover0_4
theorem final0_5 (c : Dev nD) : (dat0 V c).arrAt 5 cfg0.N = (acc0 V c 49 last_lt).2 :=
  (dat0 V c).arrAt_eq_of_cover 5 (acc0 V c 49 last_lt).2 (fun t hf => flushed0_5_eq V c t hf) cover0_5

theorem value0_h (c : Dev nD) (r : Fin 100000) (k : Fin 128) :
    (dat0 (F := Ideal) V c).arrAt 3 cfg0.N (ix2 r k)
      = Cert.Spec.dense (xs V c) (w1 V c) (b1 V c) r k :=
  congrFun (final0_3 V c) (ix2 r k)

theorem last_sum (c : Dev nD) (k : Fin 128) :
    (acc0 V c 49 last_lt).1 (ix2 (0 : Fin 1) k) = Cert.Spec.colSum (Cert.Spec.dense (xs V c) (w1 V c) (b1 V c)) k := by
  refine ((acc0_apply V c 49 last_lt 0 k).1).trans ?_
  refine (sum_all_blocks (colSeq V c k)).trans ?_
  unfold Cert.Spec.colSum colSeq
  exact Finset.sum_congr rfl fun r _ => dif_pos r.isLt

theorem last_sumsq (c : Dev nD) (k : Fin 128) :
    (acc0 V c 49 last_lt).2 (ix2 (0 : Fin 1) k)
      = Cert.Spec.colSum (fun r c' => Cert.Spec.dense (xs V c) (w1 V c) (b1 V c) r c' * Cert.Spec.dense (xs V c) (w1 V c) (b1 V c) r c') k := by
  refine ((acc0_apply V c 49 last_lt 0 k).2).trans ?_
  refine (sum_all_blocks (colSeqSq V c k)).trans ?_
  unfold Cert.Spec.colSum colSeqSq
  exact Finset.sum_congr rfl fun r _ => dif_pos r.isLt

theorem value0_sum (c : Dev nD) (k : Fin 128) :
    (dat0 (F := Ideal) V c).arrAt 4 cfg0.N (ix2 (0 : Fin 1) k)
      = Cert.Spec.colSum (Cert.Spec.dense (xs V c) (w1 V c) (b1 V c)) k :=
  (congrFun (final0_4 V c) (ix2 (0 : Fin 1) k)).trans (last_sum V c k)

theorem value0_sumsq (c : Dev nD) (k : Fin 128) :
    (dat0 (F := Ideal) V c).arrAt 5 cfg0.N (ix2 (0 : Fin 1) k)
      = Cert.Spec.colSum (fun r c' => Cert.Spec.dense (xs V c) (w1 V c) (b1 V c) r c' * Cert.Spec.dense (xs V c) (w1 V c) (b1 V c) r c') k :=
  (congrFun (final0_5 V c) (ix2 (0 : Fin 1) k)).trans (last_sumsq V c k)

end Cert.KernelIdeal.Val

end
-- ==== Proof.KVal1.lean ====
import proofs.«427484_j7000796693090_1_alg».proof.Proof.KiReg1
import proofs.«427484_j7000796693090_1_alg».proof.Proof.Spec
import Idealize.ShloMosaic.Lib.ValueIdx
import Idealize.ShloMosaic.PureOps.Ideal.Laws
import Idealize.ShloMosaic.Lib.Pipeline.Value

noncomputable section

namespace Cert.KernelIdeal.Val

open Cert.KernelIdeal Cert.KernelIdeal.Gen Cert.KernelIdeal.Hand Idealize.ShloMosaic Idealize.ShloMosaic.ValueIdx
open Idealize.ShloMosaic.TcCoe
open Idealize.ShloMosaic.Pipeline (Dat)

theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

theorem pay1_apply (x0 : Vec Ideal S2000x128 .f32) (x1 x2 x3 x4 : Vec Ideal S1x128 .f32) (p : Fin 2000) (q : Fin 128) :
    k1_pay1 (F := Ideal) x0 x1 x2 x3 x4 (ix2 p q)
      = max (((x0 (ix2 p q) - x1 (ix2 (0 : Fin 1) q)) * Ideal.rsqrt (x2 (ix2 (0 : Fin 1) q) + Cert.Spec.cEps))
          * x3 (ix2 (0 : Fin 1) q) + x4 (ix2 (0 : Fin 1) q)) 0 := by
  unfold k1_pay1
  simp only [shapeCast_self]
  rw [maximumf_apply, addf_apply, mulf_apply, mulf_apply, subf_apply,
    broadcastTo_1b_ab_apply, broadcastTo_1b_ab_apply, broadcastTo_1b_ab_apply, broadcastTo_1b_ab_apply, broadcast_apply]
  have hzero : (FloatOps.ofBits (F := Ideal) .f32 0x00000000#32 : EReal) = 0 := Ideal.ofBits_zero_f32
  rw [hzero]
  rfl

variable (V : (c : Dev nD) → (b : Ref sig .tc) → Buf (Elt Ideal) ((c : Thread nD τ).loc b))

abbrev inArr1 (c : Dev nD) : Vec Ideal S100000x128 .f32 := V c main_v6_0
abbrev meanArr1 (c : Dev nD) : Vec Ideal S1x128 .f32 := V c main_v8
abbrev varArr1 (c : Dev nD) : Vec Ideal S1x128 .f32 := V c main_v12
abbrev scaleArr1 (c : Dev nD) : Vec Ideal S1x128 .f32 := V c main_v1
abbrev shiftArr1 (c : Dev nD) : Vec Ideal S1x128 .f32 := V c main_v2

abbrev inBlk1 (c : Dev nD) (t : Fin cfg1.N) : Vec Ideal S2000x128 .f32 := iblk1 V c 0 t
abbrev meanBlk1 (c : Dev nD) (t : Fin cfg1.N) : Vec Ideal S1x128 .f32 := iblk1 V c 1 t
abbrev varBlk1 (c : Dev nD) (t : Fin cfg1.N) : Vec Ideal S1x128 .f32 := iblk1 V c 2 t
abbrev scaleBlk1 (c : Dev nD) (t : Fin cfg1.N) : Vec Ideal S1x128 .f32 := iblk1 V c 3 t
abbrev shiftBlk1 (c : Dev nD) (t : Fin cfg1.N) : Vec Ideal S1x128 .f32 := iblk1 V c 4 t

theorem blockIdx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem blockIdx1_onto : ∀ b : Fin 50, ∃ t : Fin cfg1.N, win1_5.index t = ![b.val, 0] :=
  (by decide +kernel : ∀ b : Fin 50, ∃ t : Fin grid1.N, win1_5.index t = ![b.val, 0])

theorem inBlk1_apply (c : Dev nD) (t : Fin cfg1.N) (p : Fin 2000) (q : Fin 128) (r : Fin 100000)
    (hr : r.val = t.val * 2000 + p.val) :
    inBlk1 V c t (ix2 p q) = inArr1 V c (ix2 r q) := by
  obtain ⟨e0, e1, -⟩ := blockIdx1 t
  show inArr1 V c (((cfg1.win 0).blk t).view.emb (ix2 p q)) = inArr1 V c (ix2 r q)
  congr 1
  funext a
  apply Fin.ext
  match a with
  | ⟨0, _⟩ => show win1_0.index t (0 : Fin 2) * 2000 + 1 * p.val = r.val; omega
  | ⟨1, _⟩ => show win1_0.index t (1 : Fin 2) * 128 + 1 * q.val = q.val; omega

theorem meanBlk1_apply (c : Dev nD) (t : Fin cfg1.N) (q : Fin 128) :
    meanBlk1 V c t (ix2 (0 : Fin 1) q) = meanArr1 V c (ix2 (0 : Fin 1) q) := by
  obtain ⟨-, -, e10, e11, e20, e21, e30, e31, e40, e41, -⟩ := blockIdx1 t
  show meanArr1 V c (((cfg1.win 1).blk t).view.emb (ix2 (0 : Fin 1) q)) = meanArr1 V c (ix2 (0 : Fin 1) q)
  congr 1
  funext a
  apply Fin.ext
  match a with
  | ⟨0, _⟩ => show win1_1.index t (0 : Fin 2) * 1 + 1 * 0 = 0; omega
  | ⟨1, _⟩ => show win1_1.index t (1 : Fin 2) * 128 + 1 * q.val = q.val; omega

theorem varBlk1_apply (c : Dev nD) (t : Fin cfg1.N) (q : Fin 128) :
    varBlk1 V c t (ix2 (0 : Fin 1) q) = varArr1 V c (ix2 (0 : Fin 1) q) := by
  obtain ⟨-, -, e10, e11, e20, e21, e30, e31, e40, e41, -⟩ := blockIdx1 t
  show varArr1 V c (((cfg1.win 2).blk t).view.emb (ix2 (0 : Fin 1) q)) = varArr1 V c (ix2 (0 : Fin 1) q)
  congr 1
  funext a
  apply Fin.ext
  match a with
  | ⟨0, _⟩ => show win1_2.index t (0 : Fin 2) * 1 + 1 * 0 = 0; omega
  | ⟨1, _⟩ => show win1_2.index t (1 : Fin 2) * 128 + 1 * q.val = q.val; omega

theorem scaleBlk1_apply (c : Dev nD) (t : Fin cfg1.N) (q : Fin 128) :
    scaleBlk1 V c t (ix2 (0 : Fin 1) q) = scaleArr1 V c (ix2 (0 : Fin 1) q) := by
  obtain ⟨-, -, e10, e11, e20, e21, e30, e31, e40, e41, -⟩ := blockIdx1 t
  show scaleArr1 V c (((cfg1.win 3).blk t).view.emb (ix2 (0 : Fin 1) q)) = scaleArr1 V c (ix2 (0 : Fin 1) q)
  congr 1
  funext a
  apply Fin.ext
  match a with
  | ⟨0, _⟩ => show win1_3.index t (0 : Fin 2) * 1 + 1 * 0 = 0; omega
  | ⟨1, _⟩ => show win1_3.index t (1 : Fin 2) * 128 + 1 * q.val = q.val; omega

theorem shiftBlk1_apply (c : Dev nD) (t : Fin cfg1.N) (q : Fin 128) :
    shiftBlk1 V c t (ix2 (0 : Fin 1) q) = shiftArr1 V c (ix2 (0 : Fin 1) q) := by
  obtain ⟨-, -, e10, e11, e20, e21, e30, e31, e40, e41, -⟩ := blockIdx1 t
  show shiftArr1 V c (((cfg1.win 4).blk t).view.emb (ix2 (0 : Fin 1) q)) = shiftArr1 V c (ix2 (0 : Fin 1) q)
  congr 1
  funext a
  apply Fin.ext
  match a with
  | ⟨0, _⟩ => show win1_4.index t (0 : Fin 2) * 1 + 1 * 0 = 0; omega
  | ⟨1, _⟩ => show win1_4.index t (1 : Fin 2) * 128 + 1 * q.val = q.val; omega

abbrev normRelu (a0 : Vec Ideal S100000x128 .f32) (a1 a2 a3 a4 : Vec Ideal S1x128 .f32) : Vec Ideal S100000x128 .f32 :=
  fun i => max (((a0 (ix2 (i 0) (i 1)) - a1 (ix2 (0 : Fin 1) (i 1))) * Ideal.rsqrt (a2 (ix2 (0 : Fin 1) (i 1)) + Cert.Spec.cEps))
    * a3 (ix2 (0 : Fin 1) (i 1)) + a4 (ix2 (0 : Fin 1) (i 1))) 0

-- Row p of block t is row 2000·t + p of the array, and the four rows are whole, so block t of the output is block t of one whole-array function.
theorem flushed1_eq (c : Dev nD) (t : Fin cfg1.N) :
    (dat1 (F := Ideal) V c).flushed 5 t = ((cfg1.win 5).blk t).view.read (Elt Ideal)
      (normRelu (inArr1 V c) (meanArr1 V c) (varArr1 V c) (scaleArr1 V c) (shiftArr1 V c)) := by
  show (cfg1.win 5).cut (grid1.coords t) ((dat1 (F := Ideal) V c).after 5 t) = _
  rw [after1_5, out1_5_eq]
  funext j
  obtain ⟨p, q, rfl⟩ : ∃ (p : Fin 2000) (q : Fin 128), j = ix2 p q := ⟨j 0, j 1, eq_ix2 j⟩
  have hN : cfg1.N = 50 := N_1
  have ht : t.val < 50 := by have := t.isLt; omega
  obtain ⟨-, -, -, -, -, -, -, -, -, -, e50, e51⟩ := blockIdx1 t
  obtain ⟨r, hr⟩ : ∃ r : Fin 100000, r.val = t.val * 2000 + p.val :=
    ⟨⟨t.val * 2000 + p.val, by have := p.isLt; omega⟩, rfl⟩
  have hemb : ((cfg1.win 5).blk t).view.emb (ix2 p q) = ix2 r q := by
    funext a
    apply Fin.ext
    match a with
    | ⟨0, _⟩ => show win1_5.index t (0 : Fin 2) * 2000 + 1 * p.val = r.val; omega
    | ⟨1, _⟩ => show win1_5.index t (1 : Fin 2) * 128 + 1 * q.val = q.val; omega
  show k1_pay1 (F := Ideal) (inBlk1 V c t) (meanBlk1 V c t) (varBlk1 V c t) (scaleBlk1 V c t) (shiftBlk1 V c t) (ix2 p q)
    = normRelu (inArr1 V c) (meanArr1 V c) (varArr1 V c) (scaleArr1 V c) (shiftArr1 V c) (((cfg1.win 5).blk t).view.emb (ix2 p q))
  rw [hemb]
  refine (pay1_apply (inBlk1 V c t) (meanBlk1 V c t) (varBlk1 V c t) (scaleBlk1 V c t) (shiftBlk1 V c t) p q).trans ?_
  rw [inBlk1_apply V c t p q r hr, meanBlk1_apply V c t q, varBlk1_apply V c t q, scaleBlk1_apply V c t q, shiftBlk1_apply V c t q]

-- The 50 row blocks tile the array: row r lies in block r / 2000.
theorem covered1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := blockIdx1_onto ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  show i ∈ ((View.whole main_v13).slice (win1_5.rect t)).set
  rw [View.set_slice_whole, Rect.mem_set_unit]
  intro a
  match a with
  | ⟨0, _⟩ =>
    show win1_5.index t (0 : Fin 2) * 2000 ≤ (i 0).val ∧ (i 0).val < win1_5.index t (0 : Fin 2) * 2000 + 2000
    omega
  | ⟨1, _⟩ =>
    show win1_5.index t (1 : Fin 2) * 128 ≤ (i 1).val ∧ (i 1).val < win1_5.index t (1 : Fin 2) * 128 + 128
    omega

theorem final1 (c : Dev nD) : (dat1 (F := Ideal) V c).arrAt 5 cfg1.N
    = normRelu (inArr1 V c) (meanArr1 V c) (varArr1 V c) (scaleArr1 V c) (shiftArr1 V c) :=
  (dat1 (F := Ideal) V c).arrAt_eq_of_cover 5 _ (fun t _ => flushed1_eq V c t) covered1

theorem value1 (c : Dev nD) (r : Fin 100000) (k : Fin 128) {h μ v g b : EReal}
    (hh : inArr1 V c (ix2 r k) = h) (hμ : meanArr1 V c (ix2 (0 : Fin 1) k) = μ) (hv : varArr1 V c (ix2 (0 : Fin 1) k) = v)
    (hg : scaleArr1 V c (ix2 (0 : Fin 1) k) = g) (hb : shiftArr1 V c (ix2 (0 : Fin 1) k) = b) :
    (dat1 (F := Ideal) V c).arrAt 5 cfg1.N (ix2 r k) = max (((h - μ) * Ideal.rsqrt (v + Cert.Spec.cEps)) * g + b) 0 := by
  subst hh hμ hv hg hb
  exact congrFun (final1 V c) (ix2 r k)

end Cert.KernelIdeal.Val

end
-- ==== Proof.KVal2.lean ====
import proofs.«427484_j7000796693090_1_alg».proof.Proof.KiReg2
import proofs.«427484_j7000796693090_1_alg».proof.Proof.Spec
import proofs.«427484_j7000796693090_1_alg».proof.Proof.LibDenseLayer
import proofs.«427484_j7000796693090_1_alg».proof.Proof.LibBlockSums
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Hand Idealize.ShloMosaic Idealize.ShloMosaic.ValueIdx
open Idealize.ShloMosaic.TcCoe
open Idealize.ShloMosaic.Pipeline (Dat)

namespace Launch2

section Columns
variable {a b : ℕ}

theorem lift_col (h : (⟨2, ![a, b]⟩ : Shape).Reduces [0] ⟨1, ![b]⟩) (q : Fin b) (p : Fin a) :
    h.lift (ix1 q) p = ix2 p q := by
  funext ax; apply Fin.ext
  match ax with
  | ⟨0, _⟩ => rfl
  | ⟨1, _⟩ => rfl

theorem multiReduction_add_col {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ p : Fin a, src (ix2 p q) := by
  refine (Ideal.multiReduction_add_single src acc h hφ hacc (ix1 q)).trans ?_
  show ∑ p : Fin a, src (h.lift (ix1 q) p) = _
  exact Finset.sum_congr rfl fun p _ => congrArg src (lift_col h q p)

end Columns

theorem denseLayer_apply (x : FVec Ideal S2000x128 .bf16) (w : FVec Ideal S128x128 .bf16) (p : Fin 2000) (q : Fin 128) :
    matmul dot_S2000x128_S128x128_S2000x128_1_0_0_1_n_n none x
        (transpose S128x128 [1, 0] w transposes_S128x128_p1_0_S128x128) (constant S2000x128 .f32 0x00000000#32) (ix2 p q)
      = ∑ l : Fin 128, x (ix2 p l) * w (ix2 q l) := by
  refine (DenseLayer.matmul_rows_apply dot_S2000x128_S128x128_S2000x128_1_0_0_1_n_n_wf none x _ p q).trans ?_
  exact Finset.sum_congr rfl fun l _ => congrArg (x (ix2 p l) * ·) (transpose_ix2_apply w transposes_S128x128_p1_0_S128x128 l q)

theorem denseBlock_apply (a f : Vec Ideal S2000x128 .f32) (wl wr : Vec Ideal S128x128 .f32) (b : Vec Ideal S1x128 .f32)
    (p : Fin 2000) (q : Fin 128) :
    k2_pay4 (F := Ideal) a f wl wr b (ix2 p q)
      = ((∑ l : Fin 128, a (ix2 p l) * wl (ix2 q l)) + b (ix2 (0 : Fin 1) q)) + ∑ l : Fin 128, f (ix2 p l) * wr (ix2 q l) := by
  unfold k2_pay4
  dsimp only
  refine (addf_apply _ _ _).trans ?_
  refine congrArg₂ (· + ·) ((addf_apply _ _ _).trans (congrArg₂ (· + ·) ?_ ?_)) ?_
  · refine (denseLayer_apply _ _ p q).trans (Finset.sum_congr rfl fun l _ => ?_)
    show shapeCast S2000x128 a shapeCasts_S2000x128_S2000x128 (ix2 p l) * wl (ix2 q l) = _
    rw [shapeCast_self]
  · exact (broadcastTo_1b_ab_apply _ broadcasts_S1x128_S2000x128 p q).trans (congrFun (shapeCast_self b _) _)
  · refine (denseLayer_apply _ _ p q).trans (Finset.sum_congr rfl fun l _ => ?_)
    show shapeCast S2000x128 f shapeCasts_S2000x128_S2000x128 (ix2 p l) * wr (ix2 q l) = _
    rw [shapeCast_self]

theorem runningSum_apply (a f : Vec Ideal S2000x128 .f32) (wl wr : Vec Ideal S128x128 .f32) (b s : Vec Ideal S1x128 .f32)
    (u : Fin 1) (q : Fin 128) :
    k2_pay5 (F := Ideal) a f wl wr b s (ix2 u q)
      = s (ix2 u q) + ∑ p : Fin 2000, k2_pay4 (F := Ideal) a f wl wr b (ix2 p q) := by
  unfold k2_pay5
  dsimp only
  refine (congrFun (shapeCast_self _ shapeCasts_S1x128_S1x128) (ix2 u q)).trans ?_
  refine (addf_apply _ _ _).trans (congrArg (s (ix2 u q) + ·) ?_)
  refine (shapeCast_a_1a_apply _ shapeCasts_S128_S1x128 u q).trans ?_
  exact multiReduction_add_col (k2_pay4 (F := Ideal) a f wl wr b) 0x00000000#32 reduces_S2000x128_S128 (.inl rfl) rfl q

theorem runningSumSq_apply (a f : Vec Ideal S2000x128 .f32) (wl wr : Vec Ideal S128x128 .f32) (b s : Vec Ideal S1x128 .f32)
    (u : Fin 1) (q : Fin 128) :
    k2_pay1 (k2_pay6 (F := Ideal) a f wl wr b s) (ix2 u q)
      = s (ix2 u q) + ∑ p : Fin 2000, k2_pay4 (F := Ideal) a f wl wr b (ix2 p q) * k2_pay4 (F := Ideal) a f wl wr b (ix2 p q) := by
  unfold k2_pay1 k2_pay6
  dsimp only
  refine (congrFun (shapeCast_self _ shapeCasts_S1x128_S1x128) (ix2 u q)).trans ?_
  refine (addf_apply _ _ _).trans (congrArg (s (ix2 u q) + ·) ?_)
  refine (shapeCast_a_1a_apply _ shapeCasts_S128_S1x128 u q).trans ?_
  exact multiReduction_add_col (mulf (k2_pay4 (F := Ideal) a f wl wr b) (k2_pay4 (F := Ideal) a f wl wr b)) 0x00000000#32
    reduces_S2000x128_S128 (.inl rfl) rfl q

theorem zeroSum_apply (u : Fin 1) (q : Fin 128) : (k2_pay2 (F := Ideal)) (ix2 u q) = 0 := by
  unfold k2_pay2
  exact (congrFun (shapeCast_self _ shapeCasts_S1x128_S1x128) (ix2 u q)).trans Ideal.ofBits_zero_f32

theorem zeroSumSq_apply (u : Fin 1) (q : Fin 128) : (k2_pay3 (F := Ideal)) (ix2 u q) = 0 := by
  unfold k2_pay3
  exact (congrFun (shapeCast_self _ shapeCasts_S1x128_S1x128) (ix2 u q)).trans Ideal.ofBits_zero_f32

theorem block_indices : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = t.val ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0) :=
  (by decide +kernel : ∀ t : Fin grid2.N, _)

variable (V : (c : Dev nD) → (b : Ref sig .tc) → Buf (Elt Ideal) ((c : Thread nD τ).loc b))

abbrev aggArr (c : Dev nD) : Vec Ideal S100000x128 .f32 := V c main_v30
abbrev featArr (c : Dev nD) : Vec Ideal S100000x128 .f32 := V c main_v13
abbrev wlArr (c : Dev nD) : Vec Ideal S128x128 .f32 := V c main_arg6
abbrev wrArr (c : Dev nD) : Vec Ideal S128x128 .f32 := V c main_arg8
abbrev blArr (c : Dev nD) : Vec Ideal S1x128 .f32 := V c main_v3
abbrev aggBlk (c : Dev nD) (t : Fin cfg2.N) : Vec Ideal S2000x128 .f32 := iblk2 V c 0 t
abbrev featBlk (c : Dev nD) (t : Fin cfg2.N) : Vec Ideal S2000x128 .f32 := iblk2 V c 1 t
abbrev wlBlk (c : Dev nD) (t : Fin cfg2.N) : Vec Ideal S128x128 .f32 := iblk2 V c 2 t
abbrev wrBlk (c : Dev nD) (t : Fin cfg2.N) : Vec Ideal S128x128 .f32 := iblk2 V c 3 t
abbrev blBlk (c : Dev nD) (t : Fin cfg2.N) : Vec Ideal S1x128 .f32 := iblk2 V c 4 t

abbrev rowAt (t : Fin cfg2.N) (p : Fin 2000) : Fin 100000 :=
  ⟨2000 * t.val + p.val, by have := t.isLt; have hN : cfg2.N = 50 := N_2; have := p.isLt; omega⟩

theorem aggBlk_apply (c : Dev nD) (t : Fin cfg2.N) (p : Fin 2000) (l : Fin 128) :
    aggBlk V c t (ix2 p l) = aggArr V c (ix2 (rowAt t p) l) := by
  obtain ⟨⟨e0, e1⟩, -⟩ := block_indices t
  show V c main_v30 (((cfg2.win 0).blk t).view.emb (ix2 p l)) = V c main_v30 (ix2 (rowAt t p) l)
  refine congrArg (V c main_v30) (funext fun a => Fin.ext ?_)
  match a with
  | ⟨0, _⟩ => show win2_0.index t (0 : Fin 2) * 2000 + 1 * p.val = 2000 * t.val + p.val; omega
  | ⟨1, _⟩ => show win2_0.index t (1 : Fin 2) * 128 + 1 * l.val = l.val; omega

theorem featBlk_apply (c : Dev nD) (t : Fin cfg2.N) (p : Fin 2000) (l : Fin 128) :
    featBlk V c t (ix2 p l) = featArr V c (ix2 (rowAt t p) l) := by
  obtain ⟨-, ⟨e0, e1⟩, -⟩ := block_indices t
  show V c main_v13 (((cfg2.win 1).blk t).view.emb (ix2 p l)) = V c main_v13 (ix2 (rowAt t p) l)
  refine congrArg (V c main_v13) (funext fun a => Fin.ext ?_)
  match a with
  | ⟨0, _⟩ => show win2_1.index t (0 : Fin 2) * 2000 + 1 * p.val = 2000 * t.val + p.val; omega
  | ⟨1, _⟩ => show win2_1.index t (1 : Fin 2) * 128 + 1 * l.val = l.val; omega

theorem wlBlk_apply (c : Dev nD) (t : Fin cfg2.N) (q l : Fin 128) :
    wlBlk V c t (ix2 q l) = wlArr V c (ix2 q l) := by
  obtain ⟨-, -, ⟨e0, e1⟩, -⟩ := block_indices t
  show V c main_arg6 (((cfg2.win 2).blk t).view.emb (ix2 q l)) = V c main_arg6 (ix2 q l)
  refine congrArg (V c main_arg6) (funext fun a => Fin.ext ?_)
  match a with
  | ⟨0, _⟩ => show win2_2.index t (0 : Fin 2) * 128 + 1 * q.val = q.val; omega
  | ⟨1, _⟩ => show win2_2.index t (1 : Fin 2) * 128 + 1 * l.val = l.val; omega

theorem wrBlk_apply (c : Dev nD) (t : Fin cfg2.N) (q l : Fin 128) :
    wrBlk V c t (ix2 q l) = wrArr V c (ix2 q l) := by
  obtain ⟨-, -, -, ⟨e0, e1⟩, -⟩ := block_indices t
  show V c main_arg8 (((cfg2.win 3).blk t).view.emb (ix2 q l)) = V c main_arg8 (ix2 q l)
  refine congrArg (V c main_arg8) (funext fun a => Fin.ext ?_)
  match a with
  | ⟨0, _⟩ => show win2_3.index t (0 : Fin 2) * 128 + 1 * q.val = q.val; omega
  | ⟨1, _⟩ => show win2_3.index t (1 : Fin 2) * 128 + 1 * l.val = l.val; omega

theorem blBlk_apply (c : Dev nD) (t : Fin cfg2.N) (u : Fin 1) (q : Fin 128) :
    blBlk V c t (ix2 u q) = blArr V c (ix2 u q) := by
  obtain ⟨-, -, -, -, ⟨e0, e1⟩, -⟩ := block_indices t
  show V c main_v3 (((cfg2.win 4).blk t).view.emb (ix2 u q)) = V c main_v3 (ix2 u q)
  refine congrArg (V c main_v3) (funext fun a => Fin.ext ?_)
  match a with
  | ⟨0, _⟩ => show win2_4.index t (0 : Fin 2) * 1 + 1 * u.val = u.val; omega
  | ⟨1, _⟩ => show win2_4.index t (1 : Fin 2) * 128 + 1 * q.val = q.val; omega

abbrev sageOf (c : Dev nD) : Cert.Spec.Rows 128 :=
  Cert.Spec.sage (fun r l => aggArr V c (ix2 r l)) (fun r l => featArr V c (ix2 r l)) (fun q l => wlArr V c (ix2 q l))
    (fun q => blArr V c (ix2 (0 : Fin 1) q)) (fun q l => wrArr V c (ix2 q l))

theorem block_entry (c : Dev nD) (t : Fin cfg2.N) (p : Fin 2000) (q : Fin 128) :
    k2_pay4 (F := Ideal) (aggBlk V c t) (featBlk V c t) (wlBlk V c t) (wrBlk V c t) (blBlk V c t) (ix2 p q)
      = sageOf V c (rowAt t p) q :=
  (denseBlock_apply (aggBlk V c t) (featBlk V c t) (wlBlk V c t) (wrBlk V c t) (blBlk V c t) p q).trans
    (congrArg₂ (· + ·)
      (congrArg₂ (· + ·)
        (Finset.sum_congr rfl fun l _ => congrArg₂ (· * ·) (aggBlk_apply V c t p l) (wlBlk_apply V c t q l))
        (blBlk_apply V c t 0 q))
      (Finset.sum_congr rfl fun l _ => congrArg₂ (· * ·) (featBlk_apply V c t p l) (wrBlk_apply V c t q l)))

abbrev sageArr (c : Dev nD) : Vec Ideal S100000x128 .f32 := fun i => sageOf V c (i 0) (i 1)

theorem resultBlock_written (c : Dev nD) (t : Fin cfg2.N) :
    (dat2 (F := Ideal) V c).flushed 5 t = ((cfg2.win 5).blk t).view.read (Elt Ideal) (sageArr V c) := by
  show (cfg2.win 5).cut (grid2.coords t) ((dat2 V c).after 5 t) = _
  rw [after2_5]
  funext j
  obtain ⟨p, q, rfl⟩ : ∃ (p : Fin 2000) (q : Fin 128), j = ix2 p q := ⟨j 0, j 1, eq_ix2 (n0 := 2000) (n1 := 128) j⟩
  obtain ⟨-, -, -, -, -, ⟨e0, e1⟩, -⟩ := block_indices t
  show k2_pay4 (F := Ideal) (aggBlk V c t) (featBlk V c t) (wlBlk V c t) (wrBlk V c t) (blBlk V c t) (ix2 p q)
    = sageOf V c ((((cfg2.win 5).blk t).view.emb (ix2 p q)) 0) ((((cfg2.win 5).blk t).view.emb (ix2 p q)) 1)
  refine (block_entry V c t p q).trans (congrArg₂ (sageOf V c) (Fin.ext ?_) (Fin.ext ?_))
  · show 2000 * t.val + p.val = win2_5.index t (0 : Fin 2) * 2000 + 1 * p.val; omega
  · show q.val = win2_5.index t (1 : Fin 2) * 128 + 1 * q.val; omega

theorem rows_covered (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 50 := N_2
  obtain ⟨t, ht⟩ : ∃ t : Fin cfg2.N, t.val = (i 0).val / 2000 := ⟨⟨(i 0).val / 2000, by omega⟩, rfl⟩
  obtain ⟨-, -, -, -, -, ⟨e0, e1⟩, -⟩ := block_indices t
  refine ⟨t, flush2_5 t, ?_⟩
  show i ∈ ((View.whole main_v31_0).slice (win2_5.rect t)).set
  rw [View.set_slice_whole, Rect.mem_set_unit]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 128 ≤ (i 1).val ∧ (i 1).val < win2_5.index t (1 : Fin 2) * 128 + 128; omega

theorem resultArr_eq (c : Dev nD) : (dat2 (F := Ideal) V c).arrAt 5 cfg2.N = sageArr V c :=
  (dat2 (F := Ideal) V c).arrAt_eq_of_cover 5 (sageArr V c) (fun t _ => resultBlock_written V c t) rows_covered

def padded (g : Fin 100000 → EReal) : ℕ → EReal := fun n => if h : n < 100000 then g ⟨n, h⟩ else 0

theorem padded_rowAt (g : Fin 100000 → EReal) (t : Fin cfg2.N) (p : Fin 2000) :
    padded g (2000 * t.val + p.val) = g (rowAt t p) :=
  dif_pos (rowAt t p).isLt

-- Fifty stretches of 2000 consecutive rows are all 100000 rows.
theorem sum_stretches (g : Fin 100000 → EReal) :
    ∑ s ∈ Finset.range 50, ∑ p : Fin 2000, padded g (2000 * s + p.val) = ∑ r : Fin 100000, g r := by
  rw [BlockSums.sum_blocks (padded g) 2000 50, ← Fin.sum_univ_eq_sum_range (padded g) (50 * 2000)]
  exact Finset.sum_congr rfl fun r _ => dif_pos r.isLt

-- After point n the first carried row holds the column sums over the rows of blocks 0 … n.
theorem sumRow_after (c : Dev nD) (q : Fin 128) : ∀ (n : ℕ) (h : n < cfg2.N),
    (acc2 (F := Ideal) V c n h).1 (ix2 (0 : Fin 1) q)
      = ∑ s ∈ Finset.range (n + 1), ∑ p : Fin 2000, padded (fun r => sageOf V c r q) (2000 * s + p.val)
  | 0, h => by
    rw [acc2_zero]
    dsimp only
    refine (runningSum_apply (aggBlk V c ⟨0, h⟩) (featBlk V c ⟨0, h⟩) (wlBlk V c ⟨0, h⟩) (wrBlk V c ⟨0, h⟩) (blBlk V c ⟨0, h⟩)
      (k2_pay2 (F := Ideal)) 0 q).trans ?_
    rw [zeroSum_apply, zero_add, Finset.sum_range_one]
    exact Finset.sum_congr rfl fun p _ =>
      (block_entry V c ⟨0, h⟩ p q).trans (padded_rowAt (fun r => sageOf V c r q) ⟨0, h⟩ p).symm
  | n + 1, h => by
    rw [acc2_succ]
    dsimp only
    refine (runningSum_apply (aggBlk V c ⟨n + 1, h⟩) (featBlk V c ⟨n + 1, h⟩) (wlBlk V c ⟨n + 1, h⟩) (wrBlk V c ⟨n + 1, h⟩)
      (blBlk V c ⟨n + 1, h⟩) (acc2 (F := Ideal) V c n (Nat.lt_of_succ_lt h)).1 0 q).trans ?_
    rw [sumRow_after c q n (Nat.lt_of_succ_lt h), Finset.sum_range_succ _ (n + 1)]
    exact congrArg (_ + ·) (Finset.sum_congr rfl fun p _ =>
      (block_entry V c ⟨n + 1, h⟩ p q).trans (padded_rowAt (fun r => sageOf V c r q) ⟨n + 1, h⟩ p).symm)

-- After point n the second carried row holds the column sums of squares over the rows of blocks 0 … n.
theorem sumSqRow_after (c : Dev nD) (q : Fin 128) : ∀ (n : ℕ) (h : n < cfg2.N),
    (acc2 (F := Ideal) V c n h).2 (ix2 (0 : Fin 1) q)
      = ∑ s ∈ Finset.range (n + 1), ∑ p : Fin 2000, padded (fun r => sageOf V c r q * sageOf V c r q) (2000 * s + p.val)
  | 0, h => by
    rw [acc2_zero]
    dsimp only
    refine (runningSumSq_apply (aggBlk V c ⟨0, h⟩) (featBlk V c ⟨0, h⟩) (wlBlk V c ⟨0, h⟩) (wrBlk V c ⟨0, h⟩) (blBlk V c ⟨0, h⟩)
      (k2_pay3 (F := Ideal)) 0 q).trans ?_
    rw [zeroSumSq_apply, zero_add, Finset.sum_range_one]
    exact Finset.sum_congr rfl fun p _ =>
      (congrArg₂ (· * ·) (block_entry V c ⟨0, h⟩ p q) (block_entry V c ⟨0, h⟩ p q)).trans
        (padded_rowAt (fun r => sageOf V c r q * sageOf V c r q) ⟨0, h⟩ p).symm
  | n + 1, h => by
    rw [acc2_succ]
    dsimp only
    refine (runningSumSq_apply (aggBlk V c ⟨n + 1, h⟩) (featBlk V c ⟨n + 1, h⟩) (wlBlk V c ⟨n + 1, h⟩) (wrBlk V c ⟨n + 1, h⟩)
      (blBlk V c ⟨n + 1, h⟩) (acc2 (F := Ideal) V c n (Nat.lt_of_succ_lt h)).2 0 q).trans ?_
    rw [sumSqRow_after c q n (Nat.lt_of_succ_lt h), Finset.sum_range_succ _ (n + 1)]
    exact congrArg (_ + ·) (Finset.sum_congr rfl fun p _ =>
      (congrArg₂ (· * ·) (block_entry V c ⟨n + 1, h⟩ p q) (block_entry V c ⟨n + 1, h⟩ p q)).trans
        (padded_rowAt (fun r => sageOf V c r q * sageOf V c r q) ⟨n + 1, h⟩ p).symm)

theorem sumRow_last (c : Dev nD) (q : Fin 128) (h : 49 < cfg2.N) :
    (acc2 (F := Ideal) V c 49 h).1 (ix2 (0 : Fin 1) q) = Cert.Spec.colSum (sageOf V c) q :=
  (sumRow_after V c q 49 h).trans (sum_stretches fun r => sageOf V c r q)

theorem sumSqRow_last (c : Dev nD) (q : Fin 128) (h : 49 < cfg2.N) :
    (acc2 (F := Ideal) V c 49 h).2 (ix2 (0 : Fin 1) q) = Cert.Spec.colSum (fun r c' => sageOf V c r c' * sageOf V c r c') q :=
  (sumSqRow_after V c q 49 h).trans (sum_stretches fun r => sageOf V c r q * sageOf V c r q)

abbrev sumArr (c : Dev nD) : Vec Ideal S1x128 .f32 := fun i => Cert.Spec.colSum (sageOf V c) (i 1)
abbrev sumsqArr (c : Dev nD) : Vec Ideal S1x128 .f32 :=
  fun i => Cert.Spec.colSum (fun r c' => sageOf V c r c' * sageOf V c r c') (i 1)

theorem sumRow_block (t : Fin cfg2.N) (X : Vec Ideal S1x128 .f32) (G : Fin 128 → EReal) (hX : ∀ q : Fin 128, X (ix2 (0 : Fin 1) q) = G q) :
    (cfg2.win 6).cut (grid2.coords t) X = ((cfg2.win 6).blk t).view.read (Elt Ideal) (fun i : S1x128.Idx => G (i 1)) := by
  obtain ⟨-, -, -, -, -, -, ⟨e0, e1⟩, -⟩ := block_indices t
  funext j
  obtain ⟨u, q, rfl⟩ : ∃ (u : Fin 1) (q : Fin 128), j = ix2 u q := ⟨j 0, j 1, eq_ix2 (n0 := 1) (n1 := 128) j⟩
  obtain rfl : u = 0 := Subsingleton.elim _ _
  show X (ix2 (0 : Fin 1) q) = G ((((cfg2.win 6).blk t).view.emb (ix2 (0 : Fin 1) q)) 1)
  refine (hX q).trans (congrArg G (Fin.ext ?_))
  show q.val = win2_6.index t (1 : Fin 2) * 128 + 1 * q.val; omega

theorem sumSqRow_block (t : Fin cfg2.N) (X : Vec Ideal S1x128 .f32) (G : Fin 128 → EReal) (hX : ∀ q : Fin 128, X (ix2 (0 : Fin 1) q) = G q) :
    (cfg2.win 7).cut (grid2.coords t) X = ((cfg2.win 7).blk t).view.read (Elt Ideal) (fun i : S1x128.Idx => G (i 1)) := by
  obtain ⟨-, -, -, -, -, -, -, ⟨e0, e1⟩⟩ := block_indices t
  funext j
  obtain ⟨u, q, rfl⟩ : ∃ (u : Fin 1) (q : Fin 128), j = ix2 u q := ⟨j 0, j 1, eq_ix2 (n0 := 1) (n1 := 128) j⟩
  obtain rfl : u = 0 := Subsingleton.elim _ _
  show X (ix2 (0 : Fin 1) q) = G ((((cfg2.win 7).blk t).view.emb (ix2 (0 : Fin 1) q)) 1)
  refine (hX q).trans (congrArg G (Fin.ext ?_))
  show q.val = win2_7.index t (1 : Fin 2) * 128 + 1 * q.val; omega

theorem sumRow_written (c : Dev nD) (t : Fin cfg2.N) (hf : (cfg2.win 6).flush t = true) :
    (dat2 (F := Ideal) V c).flushed 6 t = ((cfg2.win 6).blk t).view.read (Elt Ideal) (sumArr V c) := by
  have hN : cfg2.N = 50 := N_2
  have h49 : t.val = 49 := by have := (flush2_6 t).mp hf; have := t.isLt; omega
  have last : ∀ (n : ℕ) (h : n < cfg2.N) (q : Fin 128), n = 49 →
      (acc2 (F := Ideal) V c n h).1 (ix2 (0 : Fin 1) q) = Cert.Spec.colSum (sageOf V c) q :=
    fun n h q e => by subst e; exact sumRow_last V c q h
  show (cfg2.win 6).cut (grid2.coords t) ((dat2 V c).after 6 t) = _
  rw [after2_6]
  exact sumRow_block t _ (Cert.Spec.colSum (sageOf V c)) fun q => last t.val t.isLt q h49

theorem sumSqRow_written (c : Dev nD) (t : Fin cfg2.N) (hf : (cfg2.win 7).flush t = true) :
    (dat2 (F := Ideal) V c).flushed 7 t = ((cfg2.win 7).blk t).view.read (Elt Ideal) (sumsqArr V c) := by
  have hN : cfg2.N = 50 := N_2
  have h49 : t.val = 49 := by have := (flush2_7 t).mp hf; have := t.isLt; omega
  have last : ∀ (n : ℕ) (h : n < cfg2.N) (q : Fin 128), n = 49 →
      (acc2 (F := Ideal) V c n h).2 (ix2 (0 : Fin 1) q)
        = Cert.Spec.colSum (fun r c' => sageOf V c r c' * sageOf V c r c') q :=
    fun n h q e => by subst e; exact sumSqRow_last V c q h
  show (cfg2.win 7).cut (grid2.coords t) ((dat2 V c).after 7 t) = _
  rw [after2_7]
  exact sumSqRow_block t _ (Cert.Spec.colSum (fun r c' => sageOf V c r c' * sageOf V c r c')) fun q => last t.val t.isLt q h49

theorem sumRow_covered (i : S1x128.Idx) : ∃ t : Fin cfg2.N, (cfg2.win 6).flush t = true ∧ i ∈ ((cfg2.win 6).blk t).view.set := by
  have hi0 : (i 0).val < 1 := (i 0).isLt
  have hi1 : (i 1).val < 128 := (i 1).isLt
  have hN : cfg2.N = 50 := N_2
  obtain ⟨t, ht⟩ : ∃ t : Fin cfg2.N, t.val = 49 := ⟨⟨49, by omega⟩, rfl⟩
  obtain ⟨-, -, -, -, -, -, ⟨e0, e1⟩, -⟩ := block_indices t
  refine ⟨t, (flush2_6 t).mpr (by omega), ?_⟩
  show i ∈ ((View.whole main_v31_1).slice (win2_6.rect t)).set
  rw [View.set_slice_whole, Rect.mem_set_unit]
  intro a
  match a with
  | ⟨0, _⟩ => show win2_6.index t (0 : Fin 2) * 1 ≤ (i 0).val ∧ (i 0).val < win2_6.index t (0 : Fin 2) * 1 + 1; omega
  | ⟨1, _⟩ => show win2_6.index t (1 : Fin 2) * 128 ≤ (i 1).val ∧ (i 1).val < win2_6.index t (1 : Fin 2) * 128 + 128; omega

theorem sumSqRow_covered (i : S1x128.Idx) : ∃ t : Fin cfg2.N, (cfg2.win 7).flush t = true ∧ i ∈ ((cfg2.win 7).blk t).view.set := by
  have hi0 : (i 0).val < 1 := (i 0).isLt
  have hi1 : (i 1).val < 128 := (i 1).isLt
  have hN : cfg2.N = 50 := N_2
  obtain ⟨t, ht⟩ : ∃ t : Fin cfg2.N, t.val = 49 := ⟨⟨49, by omega⟩, rfl⟩
  obtain ⟨-, -, -, -, -, -, -, ⟨e0, e1⟩⟩ := block_indices t
  refine ⟨t, (flush2_7 t).mpr (by omega), ?_⟩
  show i ∈ ((View.whole main_v31_2).slice (win2_7.rect t)).set
  rw [View.set_slice_whole, Rect.mem_set_unit]
  intro a
  match a with
  | ⟨0, _⟩ => show win2_7.index t (0 : Fin 2) * 1 ≤ (i 0).val ∧ (i 0).val < win2_7.index t (0 : Fin 2) * 1 + 1; omega
  | ⟨1, _⟩ => show win2_7.index t (1 : Fin 2) * 128 ≤ (i 1).val ∧ (i 1).val < win2_7.index t (1 : Fin 2) * 128 + 128; omega

theorem sumArr_eq (c : Dev nD) : (dat2 (F := Ideal) V c).arrAt 6 cfg2.N = sumArr V c :=
  (dat2 (F := Ideal) V c).arrAt_eq_of_cover 6 (sumArr V c) (sumRow_written V c) sumRow_covered

theorem sumsqArr_eq (c : Dev nD) : (dat2 (F := Ideal) V c).arrAt 7 cfg2.N = sumsqArr V c :=
  (dat2 (F := Ideal) V c).arrAt_eq_of_cover 7 (sumsqArr V c) (sumSqRow_written V c) sumSqRow_covered

end Launch2

variable (V : (c : Dev nD) → (b : Ref sig .tc) → Buf (Elt Ideal) ((c : Thread nD τ).loc b))

theorem value2_s (c : Dev nD) (r : Fin 100000) (k : Fin 128) :
    (dat2 (F := Ideal) V c).arrAt 5 cfg2.N (ix2 r k) = Launch2.sageOf V c r k :=
  congrFun (Launch2.resultArr_eq V c) (ix2 r k)

theorem value2_sum (c : Dev nD) (k : Fin 128) :
    (dat2 (F := Ideal) V c).arrAt 6 cfg2.N (ix2 (0 : Fin 1) k) = Cert.Spec.colSum (Launch2.sageOf V c) k :=
  congrFun (Launch2.sumArr_eq V c) (ix2 (0 : Fin 1) k)

theorem value2_sumsq (c : Dev nD) (k : Fin 128) :
    (dat2 (F := Ideal) V c).arrAt 7 cfg2.N (ix2 (0 : Fin 1) k)
      = Cert.Spec.colSum (fun r c' => Launch2.sageOf V c r c' * Launch2.sageOf V c r c') k :=
  congrFun (Launch2.sumsqArr_eq V c) (ix2 (0 : Fin 1) k)

end Cert.KernelIdeal.Val

end
-- ==== Proof.KVal3.lean ====
import proofs.«427484_j7000796693090_1_alg».proof.Proof.KiReg3
import proofs.«427484_j7000796693090_1_alg».proof.Proof.KVal1
import proofs.«427484_j7000796693090_1_alg».proof.Proof.Spec
import Idealize.ShloMosaic.Lib.ValueIdx
import Idealize.ShloMosaic.Lib.Pipeline.Value

noncomputable section

namespace Cert.KernelIdeal.Val

open Cert.KernelIdeal Cert.KernelIdeal.Gen Cert.KernelIdeal.Hand Idealize.ShloMosaic Idealize.ShloMosaic.ValueIdx
open Idealize.ShloMosaic.TcCoe
open Idealize.ShloMosaic.Pipeline (Dat)

theorem pay3_apply (x0 : Vec Ideal S2000x128 .f32) (x1 x2 x3 x4 : Vec Ideal S1x128 .f32) (p : Fin 2000) (q : Fin 128) :
    k3_pay1 (F := Ideal) x0 x1 x2 x3 x4 (ix2 p q)
      = ((x0 (ix2 p q) - x1 (ix2 (0 : Fin 1) q)) * Ideal.rsqrt (x2 (ix2 (0 : Fin 1) q) + Cert.Spec.cEps))
          * x3 (ix2 (0 : Fin 1) q) + x4 (ix2 (0 : Fin 1) q) := by
  unfold k3_pay1
  simp only [shapeCast_self]
  rw [addf_apply, mulf_apply, mulf_apply, subf_apply,
    broadcastTo_1b_ab_apply, broadcastTo_1b_ab_apply, broadcastTo_1b_ab_apply, broadcastTo_1b_ab_apply]
  rfl

variable (V : (c : Dev nD) → (b : Ref sig .tc) → Buf (Elt Ideal) ((c : Thread nD τ).loc b))

abbrev inArr3 (c : Dev nD) : Vec Ideal S100000x128 .f32 := V c main_v31_0
abbrev meanArr3 (c : Dev nD) : Vec Ideal S1x128 .f32 := V c main_v33
abbrev varArr3 (c : Dev nD) : Vec Ideal S1x128 .f32 := V c main_v37
abbrev scaleArr3 (c : Dev nD) : Vec Ideal S1x128 .f32 := V c main_v4
abbrev shiftArr3 (c : Dev nD) : Vec Ideal S1x128 .f32 := V c main_v5

abbrev inBlk3 (c : Dev nD) (t : Fin cfg3.N) : Vec Ideal S2000x128 .f32 := iblk3 V c 0 t
abbrev meanBlk3 (c : Dev nD) (t : Fin cfg3.N) : Vec Ideal S1x128 .f32 := iblk3 V c 1 t
abbrev varBlk3 (c : Dev nD) (t : Fin cfg3.N) : Vec Ideal S1x128 .f32 := iblk3 V c 2 t
abbrev scaleBlk3 (c : Dev nD) (t : Fin cfg3.N) : Vec Ideal S1x128 .f32 := iblk3 V c 3 t
abbrev shiftBlk3 (c : Dev nD) (t : Fin cfg3.N) : Vec Ideal S1x128 .f32 := iblk3 V c 4 t

theorem blockIdx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem blockIdx3_onto : ∀ b : Fin 50, ∃ t : Fin cfg3.N, win3_5.index t = ![b.val, 0] :=
  (by decide +kernel : ∀ b : Fin 50, ∃ t : Fin grid3.N, win3_5.index t = ![b.val, 0])

theorem inBlk3_apply (c : Dev nD) (t : Fin cfg3.N) (p : Fin 2000) (q : Fin 128) (r : Fin 100000)
    (hr : r.val = t.val * 2000 + p.val) :
    inBlk3 V c t (ix2 p q) = inArr3 V c (ix2 r q) := by
  obtain ⟨e0, e1, -⟩ := blockIdx3 t
  show inArr3 V c (((cfg3.win 0).blk t).view.emb (ix2 p q)) = inArr3 V c (ix2 r q)
  congr 1
  funext a
  apply Fin.ext
  match a with
  | ⟨0, _⟩ => show win3_0.index t (0 : Fin 2) * 2000 + 1 * p.val = r.val; omega
  | ⟨1, _⟩ => show win3_0.index t (1 : Fin 2) * 128 + 1 * q.val = q.val; omega

theorem meanBlk3_apply (c : Dev nD) (t : Fin cfg3.N) (q : Fin 128) :
    meanBlk3 V c t (ix2 (0 : Fin 1) q) = meanArr3 V c (ix2 (0 : Fin 1) q) := by
  obtain ⟨-, -, e10, e11, e20, e21, e30, e31, e40, e41, -⟩ := blockIdx3 t
  show meanArr3 V c (((cfg3.win 1).blk t).view.emb (ix2 (0 : Fin 1) q)) = meanArr3 V c (ix2 (0 : Fin 1) q)
  congr 1
  funext a
  apply Fin.ext
  match a with
  | ⟨0, _⟩ => show win3_1.index t (0 : Fin 2) * 1 + 1 * 0 = 0; omega
  | ⟨1, _⟩ => show win3_1.index t (1 : Fin 2) * 128 + 1 * q.val = q.val; omega

theorem varBlk3_apply (c : Dev nD) (t : Fin cfg3.N) (q : Fin 128) :
    varBlk3 V c t (ix2 (0 : Fin 1) q) = varArr3 V c (ix2 (0 : Fin 1) q) := by
  obtain ⟨-, -, e10, e11, e20, e21, e30, e31, e40, e41, -⟩ := blockIdx3 t
  show varArr3 V c (((cfg3.win 2).blk t).view.emb (ix2 (0 : Fin 1) q)) = varArr3 V c (ix2 (0 : Fin 1) q)
  congr 1
  funext a
  apply Fin.ext
  match a with
  | ⟨0, _⟩ => show win3_2.index t (0 : Fin 2) * 1 + 1 * 0 = 0; omega
  | ⟨1, _⟩ => show win3_2.index t (1 : Fin 2) * 128 + 1 * q.val = q.val; omega

theorem scaleBlk3_apply (c : Dev nD) (t : Fin cfg3.N) (q : Fin 128) :
    scaleBlk3 V c t (ix2 (0 : Fin 1) q) = scaleArr3 V c (ix2 (0 : Fin 1) q) := by
  obtain ⟨-, -, e10, e11, e20, e21, e30, e31, e40, e41, -⟩ := blockIdx3 t
  show scaleArr3 V c (((cfg3.win 3).blk t).view.emb (ix2 (0 : Fin 1) q)) = scaleArr3 V c (ix2 (0 : Fin 1) q)
  congr 1
  funext a
  apply Fin.ext
  match a with
  | ⟨0, _⟩ => show win3_3.index t (0 : Fin 2) * 1 + 1 * 0 = 0; omega
  | ⟨1, _⟩ => show win3_3.index t (1 : Fin 2) * 128 + 1 * q.val = q.val; omega

theorem shiftBlk3_apply (c : Dev nD) (t : Fin cfg3.N) (q : Fin 128) :
    shiftBlk3 V c t (ix2 (0 : Fin 1) q) = shiftArr3 V c (ix2 (0 : Fin 1) q) := by
  obtain ⟨-, -, e10, e11, e20, e21, e30, e31, e40, e41, -⟩ := blockIdx3 t
  show shiftArr3 V c (((cfg3.win 4).blk t).view.emb (ix2 (0 : Fin 1) q)) = shiftArr3 V c (ix2 (0 : Fin 1) q)
  congr 1
  funext a
  apply Fin.ext
  match a with
  | ⟨0, _⟩ => show win3_4.index t (0 : Fin 2) * 1 + 1 * 0 = 0; omega
  | ⟨1, _⟩ => show win3_4.index t (1 : Fin 2) * 128 + 1 * q.val = q.val; omega

abbrev normAffine (a0 : Vec Ideal S100000x128 .f32) (a1 a2 a3 a4 : Vec Ideal S1x128 .f32) : Vec Ideal S100000x128 .f32 :=
  fun i => ((a0 (ix2 (i 0) (i 1)) - a1 (ix2 (0 : Fin 1) (i 1))) * Ideal.rsqrt (a2 (ix2 (0 : Fin 1) (i 1)) + Cert.Spec.cEps))
    * a3 (ix2 (0 : Fin 1) (i 1)) + a4 (ix2 (0 : Fin 1) (i 1))

-- Row p of block t is row 2000·t + p of the array, and the four rows are whole, so block t of the output is block t of one whole-array function.
theorem flushed3_eq (c : Dev nD) (t : Fin cfg3.N) :
    (dat3 (F := Ideal) V c).flushed 5 t = ((cfg3.win 5).blk t).view.read (Elt Ideal)
      (normAffine (inArr3 V c) (meanArr3 V c) (varArr3 V c) (scaleArr3 V c) (shiftArr3 V c)) := by
  show (cfg3.win 5).cut (grid3.coords t) ((dat3 (F := Ideal) V c).after 5 t) = _
  rw [after3_5, out3_5_eq]
  funext j
  obtain ⟨p, q, rfl⟩ : ∃ (p : Fin 2000) (q : Fin 128), j = ix2 p q := ⟨j 0, j 1, eq_ix2 j⟩
  have hN : cfg3.N = 50 := N_3
  have ht : t.val < 50 := by have := t.isLt; omega
  obtain ⟨-, -, -, -, -, -, -, -, -, -, e50, e51⟩ := blockIdx3 t
  obtain ⟨r, hr⟩ : ∃ r : Fin 100000, r.val = t.val * 2000 + p.val :=
    ⟨⟨t.val * 2000 + p.val, by have := p.isLt; omega⟩, rfl⟩
  have hemb : ((cfg3.win 5).blk t).view.emb (ix2 p q) = ix2 r q := by
    funext a
    apply Fin.ext
    match a with
    | ⟨0, _⟩ => show win3_5.index t (0 : Fin 2) * 2000 + 1 * p.val = r.val; omega
    | ⟨1, _⟩ => show win3_5.index t (1 : Fin 2) * 128 + 1 * q.val = q.val; omega
  show k3_pay1 (F := Ideal) (inBlk3 V c t) (meanBlk3 V c t) (varBlk3 V c t) (scaleBlk3 V c t) (shiftBlk3 V c t) (ix2 p q)
    = normAffine (inArr3 V c) (meanArr3 V c) (varArr3 V c) (scaleArr3 V c) (shiftArr3 V c) (((cfg3.win 5).blk t).view.emb (ix2 p q))
  rw [hemb]
  refine (pay3_apply (inBlk3 V c t) (meanBlk3 V c t) (varBlk3 V c t) (scaleBlk3 V c t) (shiftBlk3 V c t) p q).trans ?_
  rw [inBlk3_apply V c t p q r hr, meanBlk3_apply V c t q, varBlk3_apply V c t q, scaleBlk3_apply V c t q, shiftBlk3_apply V c t q]

-- The 50 row blocks tile the array: row r lies in block r / 2000.
theorem covered3 (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  obtain ⟨t, ht⟩ := blockIdx3_onto ⟨(i 0).val / 2000, by omega⟩
  have q0 : win3_5.index t (0 : Fin 2) = (i 0).val / 2000 := congrFun ht 0
  have q1 : win3_5.index t (1 : Fin 2) = 0 := congrFun ht 1
  refine ⟨t, flush3_5 t, ?_⟩
  show i ∈ ((View.whole main_v38).slice (win3_5.rect t)).set
  rw [View.set_slice_whole, Rect.mem_set_unit]
  intro a
  match a with
  | ⟨0, _⟩ =>
    show win3_5.index t (0 : Fin 2) * 2000 ≤ (i 0).val ∧ (i 0).val < win3_5.index t (0 : Fin 2) * 2000 + 2000
    omega
  | ⟨1, _⟩ =>
    show win3_5.index t (1 : Fin 2) * 128 ≤ (i 1).val ∧ (i 1).val < win3_5.index t (1 : Fin 2) * 128 + 128
    omega

theorem final3 (c : Dev nD) : (dat3 (F := Ideal) V c).arrAt 5 cfg3.N
    = normAffine (inArr3 V c) (meanArr3 V c) (varArr3 V c) (scaleArr3 V c) (shiftArr3 V c) :=
  (dat3 (F := Ideal) V c).arrAt_eq_of_cover 5 _ (fun t _ => flushed3_eq V c t) covered3

theorem value3 (c : Dev nD) (r : Fin 100000) (k : Fin 128) {h μ v g b : EReal}
    (hh : inArr3 V c (ix2 r k) = h) (hμ : meanArr3 V c (ix2 (0 : Fin 1) k) = μ) (hv : varArr3 V c (ix2 (0 : Fin 1) k) = v)
    (hg : scaleArr3 V c (ix2 (0 : Fin 1) k) = g) (hb : shiftArr3 V c (ix2 (0 : Fin 1) k) = b) :
    (dat3 (F := Ideal) V c).arrAt 5 cfg3.N (ix2 r k) = ((h - μ) * Ideal.rsqrt (v + Cert.Spec.cEps)) * g + b := by
  subst hh hμ hv hg hb
  exact congrFun (final3 V c) (ix2 r k)

end Cert.KernelIdeal.Val

end
-- ==== Proof.LibHostReads.lean ====
import Idealize.ShloMosaic.PureOps.Reduce
import Idealize.ShloMosaic.Lib.ValueIdx

namespace Idealize.ShloMosaic.HostReads

open Idealize.ShloMosaic Idealize.ShloMosaic.ValueIdx

variable {α : Type}

theorem broadcastInDim_vec_col_apply {n : ℕ} (h : (⟨1, ![n]⟩ : Shape).BroadcastsInDim ⟨2, ![n, 1]⟩ ![0])
    (v : (⟨1, ![n]⟩ : Shape).Idx → α) (p : Fin n) (u : Fin 1) :
    broadcastInDim ⟨2, ![n, 1]⟩ ![0] h v (ix2 p u) = v (ix1 p) := by
  unfold broadcastInDim
  congr 1
  funext a
  match a with
  | ⟨0, _⟩ =>
    apply Fin.ext
    dsimp only
    split
    · rename_i h1
      have h1' : n = 1 := h1
      have := p.isLt
      show (0 : ℕ) = p.val
      omega
    · rfl

theorem broadcastInDim_vec_rows_apply {n m : ℕ} (h : (⟨1, ![n]⟩ : Shape).BroadcastsInDim ⟨2, ![n, m]⟩ ![0])
    (v : (⟨1, ![n]⟩ : Shape).Idx → α) (p : Fin n) (q : Fin m) :
    broadcastInDim ⟨2, ![n, m]⟩ ![0] h v (ix2 p q) = v (ix1 p) := by
  unfold broadcastInDim
  congr 1
  funext a
  match a with
  | ⟨0, _⟩ =>
    apply Fin.ext
    dsimp only
    split
    · rename_i h1
      have h1' : n = 1 := h1
      have := p.isLt
      show (0 : ℕ) = p.val
      omega
    · rfl

theorem foldl_andi_one {ι : Type} (f : ι → BitVec 1) (hf : ∀ i, f i = 1#1) :
    ∀ (l : List ι) (r : BitVec 1), r = 1#1 → l.foldl (fun r n => IntOp.andi r (f n)) r = 1#1
  | [], r, hr => hr
  | a :: l, r, hr => by
    rw [List.foldl_cons]
    exact foldl_andi_one f hf l _ (by rw [hr, hf a]; decide)

theorem reduce_andi_of_forall_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl]
  exact foldl_andi_one x hx _ _ hinit

end Idealize.ShloMosaic.HostReads
-- ==== Proof.LibGatherRows.lean ====
import Idealize.ShloMosaic.PureOps.ShapeOps
import Idealize.ShloMosaic.Lib.ValueIdx

namespace Idealize.ShloMosaic.GatherRows

open Idealize.ShloMosaic Idealize.ShloMosaic.ValueIdx

theorem getElem_of_eq_singleton {β : Type} (l : List β) (b : β) (n : Nat) (h : n < l.length) (hl : l = [b]) : l[n] = b := by
  subst hl
  have : n = 0 := by simpa using h
  subst this; rfl

theorem gather_rows {α : Type} {N R C w : Nat} (d : GatherDims ⟨2, ![N, C]⟩ ⟨2, ![R, 1]⟩ ⟨2, ![R, C]⟩)
    (hoff : d.offsetDims = [1]) (hcoll : d.collapsedSliceDims = [0]) (hob : d.operandBatchingDims = [])
    (hsim : d.startIndexMap = [0]) (hivd : d.indexVectorDim = 1)
    (T : (⟨2, ![N, C]⟩ : Shape).Idx → α) (idx : IVec ⟨2, ![R, 1]⟩ w) (e : Fin R) (j : Fin C) (hN : 0 < N) :
    Host.gather d T idx (ix2 e j) = T (ix2 ⟨min (idx (ix2 e 0)).toInt.toNat (N - 1), by omega⟩ j) := by
  unfold Host.gather
  congr 1
  funext a
  apply Fin.ext
  have hb : ∀ a, a ∉ d.operandBatchingDims := fun a => by rw [hob]; exact List.not_mem_nil
  match a with
  | ⟨0, _⟩ =>

    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e j) idx 0 + d.batchCoord (ix2 e j) 0 + d.offCoord (ix2 e j) 0 = _
    rw [GatherDims.batchCoord_eq_zero _ _ _ (hb 0), GatherDims.offCoord_eq_zero _ _ _ hk]
    simp only [Nat.add_zero]
    unfold GatherDims.start
    rw [dif_pos hm]
    show min (idx _).toInt.toNat (N - d.sliceSizes 0) = min (idx (ix2 e 0)).toInt.toNat (N - 1)
    rw [hsl]
    congr 3
    congr 1

    funext b
    match b with
    | ⟨0, _⟩ =>
      unfold GatherDims.siIdx
      rw [dif_neg (by rw [hivd]; simp)]
      unfold GatherDims.siCoord
      apply Fin.ext
      simp only [Fin.val_cast]
      have hbd : d.batchDims = [0] := by
        show Shape.kept _ d.offsetDims = _
        rw [hoff]; rfl
      rw [getElem_of_eq_singleton d.batchDims 0 _ _ hbd]
      rfl
    | ⟨1, _⟩ =>
      unfold GatherDims.siIdx
      rw [dif_pos (by rw [hivd])]
      apply Fin.ext
      show List.idxOf (0 : Fin 2) d.startIndexMap = 0
      rw [hsim]; simp
  | ⟨1, _⟩ =>

    have hk : (1 : Fin 2) ∈ d.sKept := by rw [GatherDims.mem_sKept, hcoll]; exact ⟨by simp, hb 1⟩
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb 1)]
    unfold GatherDims.start GatherDims.offCoord
    rw [dif_neg hm, dif_pos hk]
    simp only [Nat.add_zero, Nat.zero_add]
    rw [getElem_of_eq_singleton d.offsetDims 1 _ _ hoff]
    rfl

abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

theorem gather_rowDims_apply {α : Type} {N R C w : Nat} (hN : 0 < N)
    (wf : GatherDims.WF ⟨2, ![N, C]⟩ ⟨2, ![R, 1]⟩ ⟨2, ![R, C]⟩ [1] [0] [] [0] [] 1 ![1, C])
    (T : (⟨2, ![N, C]⟩ : Shape).Idx → α) (idx : IVec ⟨2, ![R, 1]⟩ w) (e : Fin R) (j : Fin C) :
    Host.gather (rowDims N R C wf) T idx (ix2 e j) = T (ix2 ⟨min (idx (ix2 e 0)).toInt.toNat (N - 1), by omega⟩ j) :=
  gather_rows (rowDims N R C wf) rfl rfl rfl rfl rfl T idx e j hN

end Idealize.ShloMosaic.GatherRows
-- ==== Proof.LibScatterAddRows.lean ====
import Idealize.ShloMosaic.PureOps.Ideal.Laws
import Idealize.ShloMosaic.Lib.ValueIdx

noncomputable section

open scoped BigOperators

namespace Idealize.ShloMosaic.ScatterAddRows

open Idealize.ShloMosaic Idealize.ShloMosaic.ValueIdx

theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · rename_i hc
      have h' := Option.some.inj h
      intro a
      have h1 := congrArg (fun f => (f a).val) h'
      simp only at h1
      have h2 := hc a
      omega
    · exact absurd h (by simp)
  · intro h
    have hc : ∀ a, 0 ≤ d.start j idx a + d.window j a ∧ d.start j idx a + d.window j a < s.size a := by
      intro a
      have h1 := h a
      have h2 := (i a).isLt
      omega
    rw [dif_pos hc]
    congr 1
    funext a
    apply Fin.ext
    have h1 := h a
    simp only
    omega

def idxEquiv1 {n : ℕ} : (⟨1, ![n]⟩ : Shape).Idx ≃ Fin n where
  toFun i := i 0
  invFun a := ix1 a
  left_inv i := (eq_ix1 i).symm
  right_inv _ := rfl

theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

section Rows
variable {C D N : ℕ} (wf : ScatterDims.WF ⟨2, ![C, D]⟩ ⟨2, ![N, 1]⟩ ⟨2, ![N, D]⟩ [1] [0] [0] 1)

private theorem rows_siIdx (j : (⟨2, ![N, D]⟩ : Shape).Idx) (c) :
    (⟨[1], [0], [0], 1, wf⟩ : ScatterDims ⟨2, ![C, D]⟩ ⟨2, ![N, 1]⟩ ⟨2, ![N, D]⟩).siIdx j c = ix2 (j 0) (0 : Fin 1) := by
  funext b
  match b with
  | ⟨0, _⟩ => exact Fin.ext rfl
  | ⟨1, _⟩ =>
    apply Fin.ext
    have hc : c.val < 1 := c.isLt
    show c.val = 0
    omega

private theorem rows_start0 {w : ℕ} (j : (⟨2, ![N, D]⟩ : Shape).Idx) (idx : IVec ⟨2, ![N, 1]⟩ w) :
    (⟨[1], [0], [0], 1, wf⟩ : ScatterDims ⟨2, ![C, D]⟩ ⟨2, ![N, 1]⟩ ⟨2, ![N, D]⟩).start j idx 0
      = (idx (ix2 (j 0) (0 : Fin 1))).toInt := by
  unfold ScatterDims.start
  rw [dif_pos (List.mem_cons_self ..), rows_siIdx]
  rfl

private theorem rows_start1 {w : ℕ} (j : (⟨2, ![N, D]⟩ : Shape).Idx) (idx : IVec ⟨2, ![N, 1]⟩ w) :
    (⟨[1], [0], [0], 1, wf⟩ : ScatterDims ⟨2, ![C, D]⟩ ⟨2, ![N, 1]⟩ ⟨2, ![N, D]⟩).start j idx 1 = 0 := by
  unfold ScatterDims.start
  rw [dif_neg (by simp)]

private theorem rows_window0 (j : (⟨2, ![N, D]⟩ : Shape).Idx) :
    (⟨[1], [0], [0], 1, wf⟩ : ScatterDims ⟨2, ![C, D]⟩ ⟨2, ![N, 1]⟩ ⟨2, ![N, D]⟩).window j 0 = 0 := by
  rfl

private theorem rows_window1 (j : (⟨2, ![N, D]⟩ : Shape).Idx) :
    (⟨[1], [0], [0], 1, wf⟩ : ScatterDims ⟨2, ![C, D]⟩ ⟨2, ![N, 1]⟩ ⟨2, ![N, D]⟩).window j 1 = (j 1).val := by
  rfl

theorem rows_resultIdx?_iff {w : ℕ} (j : (⟨2, ![N, D]⟩ : Shape).Idx) (idx : IVec ⟨2, ![N, 1]⟩ w) (k : Fin C) (e : Fin D) :
    (⟨[1], [0], [0], 1, wf⟩ : ScatterDims ⟨2, ![C, D]⟩ ⟨2, ![N, 1]⟩ ⟨2, ![N, D]⟩).resultIdx? j idx = some (ix2 k e)
      ↔ (idx (ix2 (j 0) (0 : Fin 1))).toInt = (k.val : ℤ) ∧ j 1 = e := by
  rw [resultIdx?_eq_some_iff, Fin.forall_fin_two, rows_start0, rows_start1, rows_window0, rows_window1]
  constructor
  · rintro ⟨h0, h1⟩
    refine ⟨?_, Fin.ext ?_⟩
    · simpa using h0
    · have : ((j 1).val : ℤ) = (e.val : ℤ) := by simpa using h1
      exact_mod_cast this
  · rintro ⟨h0, h1⟩
    refine ⟨?_, ?_⟩
    · simpa using h0
    · subst h1; simp

end Rows

section Vec
variable {C N : ℕ} (wf : ScatterDims.WF ⟨1, ![C]⟩ ⟨2, ![N, 1]⟩ ⟨1, ![N]⟩ [] [0] [0] 1)

private theorem vec_siIdx (j : (⟨1, ![N]⟩ : Shape).Idx) (c) :
    (⟨[], [0], [0], 1, wf⟩ : ScatterDims ⟨1, ![C]⟩ ⟨2, ![N, 1]⟩ ⟨1, ![N]⟩).siIdx j c = ix2 (j 0) (0 : Fin 1) := by
  funext b
  match b with
  | ⟨0, _⟩ => exact Fin.ext rfl
  | ⟨1, _⟩ =>
    apply Fin.ext
    have hc : c.val < 1 := c.isLt
    show c.val = 0
    omega

private theorem vec_start0 {w : ℕ} (j : (⟨1, ![N]⟩ : Shape).Idx) (idx : IVec ⟨2, ![N, 1]⟩ w) :
    (⟨[], [0], [0], 1, wf⟩ : ScatterDims ⟨1, ![C]⟩ ⟨2, ![N, 1]⟩ ⟨1, ![N]⟩).start j idx 0
      = (idx (ix2 (j 0) (0 : Fin 1))).toInt := by
  unfold ScatterDims.start
  rw [dif_pos (List.mem_cons_self ..), vec_siIdx]
  rfl

private theorem vec_window0 (j : (⟨1, ![N]⟩ : Shape).Idx) :
    (⟨[], [0], [0], 1, wf⟩ : ScatterDims ⟨1, ![C]⟩ ⟨2, ![N, 1]⟩ ⟨1, ![N]⟩).window j 0 = 0 := by
  rfl

theorem vec_resultIdx?_iff {w : ℕ} (j : (⟨1, ![N]⟩ : Shape).Idx) (idx : IVec ⟨2, ![N, 1]⟩ w) (k : Fin C) :
    (⟨[], [0], [0], 1, wf⟩ : ScatterDims ⟨1, ![C]⟩ ⟨2, ![N, 1]⟩ ⟨1, ![N]⟩).resultIdx? j idx = some (ix1 k)
      ↔ (idx (ix2 (j 0) (0 : Fin 1))).toInt = (k.val : ℤ) := by
  rw [resultIdx?_eq_some_iff, Fin.forall_fin_one, vec_start0, vec_window0]
  constructor
  · intro h0
    simpa using h0
  · intro h0
    simpa using h0

end Vec

theorem scatterAdd_rows_apply {C D N w : ℕ}
    (wf : ScatterDims.WF ⟨2, ![C, D]⟩ ⟨2, ![N, 1]⟩ ⟨2, ![N, D]⟩ [1] [0] [0] 1)
    (x : (⟨2, ![C, D]⟩ : Shape).Idx → EReal) (idx : IVec ⟨2, ![N, 1]⟩ w) (upd : (⟨2, ![N, D]⟩ : Shape).Idx → EReal)
    (k : Fin C) (e : Fin D) :
    Ideal.hostScatterAdd (⟨[1], [0], [0], 1, wf⟩ : ScatterDims ⟨2, ![C, D]⟩ ⟨2, ![N, 1]⟩ ⟨2, ![N, D]⟩) x idx upd (ix2 k e)
      = x (ix2 k e) + ∑ n : Fin N, if (idx (ix2 n (0 : Fin 1))).toInt = (k.val : ℤ) then upd (ix2 n e) else 0 := by
  unfold Ideal.hostScatterAdd
  congr 1
  rw [Finset.sum_filter, sum_idx2]
  refine Finset.sum_congr rfl fun n _ => ?_
  have hiff : ∀ b : Fin D,
      ((⟨[1], [0], [0], 1, wf⟩ : ScatterDims ⟨2, ![C, D]⟩ ⟨2, ![N, 1]⟩ ⟨2, ![N, D]⟩).resultIdx? (ix2 n b) idx = some (ix2 k e))
        ↔ ((idx (ix2 n (0 : Fin 1))).toInt = (k.val : ℤ) ∧ b = e) := fun b => rows_resultIdx?_iff wf (ix2 n b) idx k e
  simp only [hiff]
  by_cases hc : (idx (ix2 n (0 : Fin 1))).toInt = (k.val : ℤ)
  · simp [hc]
  · simp [hc]

theorem scatterAdd_vec_apply {C N w : ℕ}
    (wf : ScatterDims.WF ⟨1, ![C]⟩ ⟨2, ![N, 1]⟩ ⟨1, ![N]⟩ [] [0] [0] 1)
    (x : (⟨1, ![C]⟩ : Shape).Idx → EReal) (idx : IVec ⟨2, ![N, 1]⟩ w) (upd : (⟨1, ![N]⟩ : Shape).Idx → EReal)
    (k : Fin C) :
    Ideal.hostScatterAdd (⟨[], [0], [0], 1, wf⟩ : ScatterDims ⟨1, ![C]⟩ ⟨2, ![N, 1]⟩ ⟨1, ![N]⟩) x idx upd (ix1 k)
      = x (ix1 k) + ∑ n : Fin N, if (idx (ix2 n (0 : Fin 1))).toInt = (k.val : ℤ) then upd (ix1 n) else 0 := by
  unfold Ideal.hostScatterAdd
  congr 1
  rw [Finset.sum_filter, sum_idx1]
  refine Finset.sum_congr rfl fun n _ => ?_
  exact if_congr (vec_resultIdx?_iff wf (ix1 n) idx k) rfl rfl

end Idealize.ShloMosaic.ScatterAddRows

end
-- ==== Proof.LibHostIdx.lean ====
import Idealize.ShloMosaic.PureOps.Ideal.Laws
import Idealize.ShloMosaic.Lib.ValueIdx
import Idealize.ShloMosaic.Lib.Pipeline.Value
import Idealize.ShloMosaic.Lib.IdealHost
import Idealize.ShloMosaic.Lib.DynamicIndex
import Mathlib.Algebra.BigOperators.Fin
import proofs.«427484_j7000796693090_1_alg».proof.Proof.LibScatterAddRows

open scoped BigOperators

namespace Idealize.ShloMosaic.HostIdx

open Idealize.ShloMosaic Idealize.ShloMosaic.ValueIdx

section Wrap
variable {s : Shape} {α : Type}

theorem select_slt_of_nonneg {w : ℕ} (v z : IVec s w) (a b : s.Idx → α) (i : s.Idx) (hz : z i = 0#w)
    (h : 0 ≤ (v i).toInt) : select (cmpi .slt v z) a b i = b i := by
  have hlt : (v i).slt (z i) = false := by
    rw [hz]
    simp only [BitVec.slt, BitVec.toInt_zero, decide_eq_false_iff_not, Int.not_lt]
    exact h
  show (if BitVec.ofBool ((v i).slt (z i)) = 1 then _ else _) = _
  rw [hlt]
  rfl

theorem wrap_of_nonneg {w : ℕ} (v z k : IVec s w) (i : s.Idx) (hz : z i = 0#w) (h : 0 ≤ (v i).toInt) :
    select (cmpi .slt v z) (addi v k) v i = v i :=
  select_slt_of_nonneg v z (addi v k) v i hz h

end Wrap

section Concat
variable {α : Type}

theorem concat_vec_apply_left {a b c : ℕ}
    (h : Shape.Concatenates [(⟨1, ![a]⟩ : Shape), ⟨1, ![b]⟩] ⟨1, ![c]⟩ 0)
    (x : (⟨1, ![a]⟩ : Shape).Idx → α) (y : (⟨1, ![b]⟩ : Shape).Idx → α) (q : Fin c) (p : Fin a) (hp : q.val = p.val) :
    concatenate ⟨1, ![c]⟩ 0 [⟨⟨1, ![a]⟩, x⟩, ⟨⟨1, ![b]⟩, y⟩] h (ix1 q) = x (ix1 p) :=
  concatenate_pair_apply_left (t := ⟨1, ![c]⟩) (s₁ := ⟨1, ![a]⟩) (s₂ := ⟨1, ![b]⟩) 0 x y h (ix1 q) rfl (ix1 p)
    (fun e => by
      match e with
      | ⟨0, _⟩ => exact hp.symm)

theorem concat_vec_apply_right {a b c : ℕ}
    (h : Shape.Concatenates [(⟨1, ![a]⟩ : Shape), ⟨1, ![b]⟩] ⟨1, ![c]⟩ 0)
    (x : (⟨1, ![a]⟩ : Shape).Idx → α) (y : (⟨1, ![b]⟩ : Shape).Idx → α) (q : Fin c) (p : Fin b)
    (hp : q.val = a + p.val) :
    concatenate ⟨1, ![c]⟩ 0 [⟨⟨1, ![a]⟩, x⟩, ⟨⟨1, ![b]⟩, y⟩] h (ix1 q) = y (ix1 p) :=
  concatenate_pair_apply_right (t := ⟨1, ![c]⟩) (s₁ := ⟨1, ![a]⟩) (s₂ := ⟨1, ![b]⟩) 0 x y h (ix1 q) rfl rfl (ix1 p)
    (fun e he => by
      match e with
      | ⟨0, _⟩ => exact absurd rfl he)
    (by show p.val + a = q.val; omega)

theorem concat_cols_apply_zero {N : ℕ}
    (h : Shape.Concatenates [(⟨2, ![N, 1]⟩ : Shape), ⟨2, ![N, 1]⟩] ⟨2, ![N, 2]⟩ 1)
    (x y : (⟨2, ![N, 1]⟩ : Shape).Idx → α) (n : Fin N) :
    concatenate ⟨2, ![N, 2]⟩ 1 [⟨⟨2, ![N, 1]⟩, x⟩, ⟨⟨2, ![N, 1]⟩, y⟩] h (ix2 n (0 : Fin 2)) = x (ix2 n (0 : Fin 1)) :=
  concatenate_pair_apply_left (t := ⟨2, ![N, 2]⟩) (s₁ := ⟨2, ![N, 1]⟩) (s₂ := ⟨2, ![N, 1]⟩) 1 x y h
    (ix2 n (0 : Fin 2)) rfl (ix2 n (0 : Fin 1))
    (fun e => by
      match e with
      | ⟨0, _⟩ => rfl
      | ⟨1, _⟩ => rfl)

theorem concat_cols_apply_one {N : ℕ}
    (h : Shape.Concatenates [(⟨2, ![N, 1]⟩ : Shape), ⟨2, ![N, 1]⟩] ⟨2, ![N, 2]⟩ 1)
    (x y : (⟨2, ![N, 1]⟩ : Shape).Idx → α) (n : Fin N) :
    concatenate ⟨2, ![N, 2]⟩ 1 [⟨⟨2, ![N, 1]⟩, x⟩, ⟨⟨2, ![N, 1]⟩, y⟩] h (ix2 n (1 : Fin 2)) = y (ix2 n (0 : Fin 1)) :=
  concatenate_pair_apply_right (t := ⟨2, ![N, 2]⟩) (s₁ := ⟨2, ![N, 1]⟩) (s₂ := ⟨2, ![N, 1]⟩) 1 x y h
    (ix2 n (1 : Fin 2)) rfl rfl (ix2 n (0 : Fin 1))
    (fun e he => by
      match e with
      | ⟨0, _⟩ => rfl
      | ⟨1, _⟩ => exact absurd rfl he)
    rfl

end Concat

theorem iota_vec_apply {n : ℕ} (w : ℕ) (v : Fin n) :
    iotaInDim (⟨1, ![n]⟩ : Shape) w 0 (ix1 v) = BitVec.ofNat w v.val := rfl

theorem iota_vec_toInt {n : ℕ} (hn : n ≤ 2 ^ 31) (v : Fin n) :
    (iotaInDim (⟨1, ![n]⟩ : Shape) 32 0 (ix1 v)).toInt = (v.val : ℤ) := by
  rw [iota_vec_apply]
  exact toInt_ofNat_of_lt (by have := v.isLt; omega)

theorem sum_fin_split {M : Type*} [AddCommMonoid M] {a b c : ℕ} (hc : c = a + b) (f : Fin c → M) :
    ∑ q : Fin c, f q
      = (∑ p : Fin a, f ⟨p.val, by have := p.isLt; omega⟩) + ∑ p : Fin b, f ⟨a + p.val, by have := p.isLt; omega⟩ := by
  subst hc
  rw [Fin.sum_univ_add]
  rfl

theorem sum_idx1_split {M : Type*} [AddCommMonoid M] {a b c : ℕ} (hc : c = a + b) (f : (⟨1, ![c]⟩ : Shape).Idx → M) :
    ∑ i, f i
      = (∑ p : Fin a, f (ix1 ⟨p.val, by have := p.isLt; omega⟩))
        + ∑ p : Fin b, f (ix1 ⟨a + p.val, by have := p.isLt; omega⟩) := by
  rw [ScatterAddRows.sum_idx1, sum_fin_split hc]

end Idealize.ShloMosaic.HostIdx
-- ==== Proof.LibEdgeMean.lean ====
import Idealize.ShloMosaic.PureOps.Ideal.Laws
import Idealize.ShloMosaic.Lib.ValueIdx
import proofs.«427484_j7000796693090_1_alg».proof.Proof.Spec
import proofs.«427484_j7000796693090_1_alg».proof.Proof.LibGatherRows
import proofs.«427484_j7000796693090_1_alg».proof.Proof.LibScatterAddRows

noncomputable section

open scoped BigOperators

namespace Cert.EdgeMean

open Idealize.ShloMosaic Idealize.ShloMosaic.ValueIdx

theorem wrap_eq (s : BitVec 32) :
    Scalar.select (IntOp.cmpi .slt s 0#32) (IntOp.addi s 100000#32) s = Cert.Spec.wrapWord s := by
  unfold Cert.Spec.wrapWord
  by_cases h : s.toInt < 0
  · have hlt : s.slt 0#32 = true := by simp [BitVec.slt, h]
    rw [if_pos h]
    show (if BitVec.ofBool (s.slt 0#32) = 1 then s + 100000#32 else s) = _
    rw [hlt]; rfl
  · have hlt : s.slt 0#32 = false := by simp [BitVec.slt, h]
    rw [if_neg h]
    show (if BitVec.ofBool (s.slt 0#32) = 1 then s + 100000#32 else s) = _
    rw [hlt]; rfl

theorem wrap_apply {s : Shape} (v z k : IVec s 32) (i : s.Idx) (hz : z i = 0#32) (hk : k i = 100000#32) :
    select (cmpi .slt v z) (addi v k) v i = Cert.Spec.wrapWord (v i) := by
  show Scalar.select (IntOp.cmpi .slt (v i) (z i)) (IntOp.addi (v i) (k i)) (v i) = _
  rw [hz, hk]
  exact wrap_eq (v i)

theorem gather_rowOf {α : Type} {R C : ℕ} (d : GatherDims ⟨2, ![100000, C]⟩ ⟨2, ![R, 1]⟩ ⟨2, ![R, C]⟩)
    (hoff : d.offsetDims = [1]) (hcoll : d.collapsedSliceDims = [0]) (hob : d.operandBatchingDims = [])
    (hsim : d.startIndexMap = [0]) (hivd : d.indexVectorDim = 1)
    (T : (⟨2, ![100000, C]⟩ : Shape).Idx → α) (idx : IVec ⟨2, ![R, 1]⟩ 32) (n : Fin R) (c : Fin C) :
    Host.gather d T idx (ix2 n c) = T (ix2 (Cert.Spec.rowOf (idx (ix2 n (0 : Fin 1)))) c) :=
  (GatherRows.gather_rows d hoff hcoll hob hsim hivd T idx n c (by decide)).trans
    (congrArg (fun q : Fin 100000 => T (ix2 q c)) (Fin.ext rfl))

theorem scatterAdd_rows {C D N w : ℕ} (d : ScatterDims ⟨2, ![C, D]⟩ ⟨2, ![N, 1]⟩ ⟨2, ![N, D]⟩)
    (hu : d.updateWindowDims = [1]) (hi : d.insertedWindowDims = [0]) (hs : d.scatterDimsToOperandDims = [0])
    (hv : d.indexVectorDim = 1)
    (x : (⟨2, ![C, D]⟩ : Shape).Idx → EReal) (idx : IVec ⟨2, ![N, 1]⟩ w) (upd : (⟨2, ![N, D]⟩ : Shape).Idx → EReal)
    (k : Fin C) (e : Fin D) :
    Host.scatterAdd (F := Ideal) (φ := .f32) d x idx upd (ix2 k e)
      = x (ix2 k e) + ∑ n : Fin N, if (idx (ix2 n (0 : Fin 1))).toInt = (k.val : ℤ) then upd (ix2 n e) else 0 := by
  obtain ⟨a, b, c, v, wf⟩ := d
  simp only at hu hi hs hv
  subst hu hi hs hv
  exact ScatterAddRows.scatterAdd_rows_apply wf x idx upd k e

theorem scatterAdd_vec {C N w : ℕ} (d : ScatterDims ⟨1, ![C]⟩ ⟨2, ![N, 1]⟩ ⟨1, ![N]⟩)
    (hu : d.updateWindowDims = []) (hi : d.insertedWindowDims = [0]) (hs : d.scatterDimsToOperandDims = [0])
    (hv : d.indexVectorDim = 1)
    (x : (⟨1, ![C]⟩ : Shape).Idx → EReal) (idx : IVec ⟨2, ![N, 1]⟩ w) (upd : (⟨1, ![N]⟩ : Shape).Idx → EReal)
    (k : Fin C) :
    Host.scatterAdd (F := Ideal) (φ := .f32) d x idx upd (ix1 k)
      = x (ix1 k) + ∑ n : Fin N, if (idx (ix2 n (0 : Fin 1))).toInt = (k.val : ℤ) then upd (ix1 n) else 0 := by
  obtain ⟨a, b, c, v, wf⟩ := d
  simp only at hu hi hs hv
  subst hu hi hs hv
  exact ScatterAddRows.scatterAdd_vec_apply wf x idx upd k

theorem summed_eq
    (dg : GatherDims ⟨2, ![100000, 128]⟩ ⟨2, ![1600000, 1]⟩ ⟨2, ![1600000, 128]⟩)
    (hoff : dg.offsetDims = [1]) (hcoll : dg.collapsedSliceDims = [0]) (hob : dg.operandBatchingDims = [])
    (hsim : dg.startIndexMap = [0]) (hivd : dg.indexVectorDim = 1)
    (ds : ScatterDims ⟨2, ![100000, 128]⟩ ⟨2, ![1600000, 1]⟩ ⟨2, ![1600000, 128]⟩)
    (hu : ds.updateWindowDims = [1]) (hi : ds.insertedWindowDims = [0]) (hs : ds.scatterDimsToOperandDims = [0])
    (hv : ds.indexVectorDim = 1)
    (T Z : (⟨2, ![100000, 128]⟩ : Shape).Idx → EReal) (hZ : ∀ i, Z i = 0)
    (src dcol : IVec ⟨2, ![1600000, 1]⟩ 32) (r : Fin 100000) (c : Fin 128) :
    Host.scatterAdd (F := Ideal) (φ := .f32) ds Z dcol (Host.gather dg T src) (ix2 r c)
      = Cert.Spec.summed (fun r c => T (ix2 r c)) (fun n => src (ix2 n (0 : Fin 1))) (fun n => dcol (ix2 n (0 : Fin 1))) r c := by
  rw [scatterAdd_rows ds hu hi hs hv Z dcol (Host.gather dg T src) r c, hZ]
  unfold Cert.Spec.summed
  refine congrArg (fun t : EReal => 0 + t) (Finset.sum_congr rfl fun n _ => ?_)
  rw [gather_rowOf dg hoff hcoll hob hsim hivd T src n c]

theorem cnt_eq
    (dv : ScatterDims ⟨1, ![100000]⟩ ⟨2, ![1600000, 1]⟩ ⟨1, ![1600000]⟩)
    (hu : dv.updateWindowDims = []) (hi : dv.insertedWindowDims = [0]) (hs : dv.scatterDimsToOperandDims = [0])
    (hv : dv.indexVectorDim = 1)
    (Z : (⟨1, ![100000]⟩ : Shape).Idx → EReal) (hZ : ∀ i, Z i = 0)
    (O : (⟨1, ![1600000]⟩ : Shape).Idx → EReal) (hO : ∀ i, O i = Cert.Spec.cOne)
    (dcol : IVec ⟨2, ![1600000, 1]⟩ 32) (r : Fin 100000) :
    Host.scatterAdd (F := Ideal) (φ := .f32) dv Z dcol O (ix1 r)
      = Cert.Spec.cnt (fun n => dcol (ix2 n (0 : Fin 1))) r := by
  rw [scatterAdd_vec dv hu hi hs hv Z dcol O r, hZ]
  unfold Cert.Spec.cnt
  refine congrArg (fun t : EReal => 0 + t) (Finset.sum_congr rfl fun n _ => ?_)
  rw [hO]

end Cert.EdgeMean

end
-- ==== Proof.KHost.lean ====
import proofs.«427484_j7000796693090_1_alg».proof.Proof.Gen.KernelIdeal.Launch
import proofs.«427484_j7000796693090_1_alg».proof.Proof.Spec
import proofs.«427484_j7000796693090_1_alg».proof.Proof.LibHostReads
import proofs.«427484_j7000796693090_1_alg».proof.Proof.LibGatherRows
import proofs.«427484_j7000796693090_1_alg».proof.Proof.LibScatterAddRows
import proofs.«427484_j7000796693090_1_alg».proof.Proof.LibHostIdx
import proofs.«427484_j7000796693090_1_alg».proof.Proof.LibEdgeMean
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.Val

open Cert.KernelIdeal Cert.KernelIdeal.Gen
open Idealize.ShloMosaic Idealize.ShloMosaic.ValueIdx

theorem host0_v0 (W : Valuation τ sig (Elt Ideal)) (k : Fin 128) :
    (StableHlo.after (hostOps0 (F := Ideal)) W (Proc.devRef .tc main_v0) : Vec Ideal S1x128 .f32) (ix2 (0 : Fin 1) k)
      = (W (Proc.devRef .tc main_arg3) : Vec Ideal S128 .f32) (ix1 k) := by
  after_results
  exact shapeCast_a_1a_apply _ _ _ _

theorem host0_v1 (W : Valuation τ sig (Elt Ideal)) (k : Fin 128) :
    (StableHlo.after (hostOps0 (F := Ideal)) W (Proc.devRef .tc main_v1) : Vec Ideal S1x128 .f32) (ix2 (0 : Fin 1) k)
      = (W (Proc.devRef .tc main_arg4) : Vec Ideal S128 .f32) (ix1 k) := by
  after_results
  exact shapeCast_a_1a_apply _ _ _ _

theorem host0_v2 (W : Valuation τ sig (Elt Ideal)) (k : Fin 128) :
    (StableHlo.after (hostOps0 (F := Ideal)) W (Proc.devRef .tc main_v2) : Vec Ideal S1x128 .f32) (ix2 (0 : Fin 1) k)
      = (W (Proc.devRef .tc main_arg5) : Vec Ideal S128 .f32) (ix1 k) := by
  after_results
  exact shapeCast_a_1a_apply _ _ _ _

theorem host0_v3 (W : Valuation τ sig (Elt Ideal)) (k : Fin 128) :
    (StableHlo.after (hostOps0 (F := Ideal)) W (Proc.devRef .tc main_v3) : Vec Ideal S1x128 .f32) (ix2 (0 : Fin 1) k)
      = (W (Proc.devRef .tc main_arg7) : Vec Ideal S128 .f32) (ix1 k) := by
  after_results
  exact shapeCast_a_1a_apply _ _ _ _

theorem host0_v4 (W : Valuation τ sig (Elt Ideal)) (k : Fin 128) :
    (StableHlo.after (hostOps0 (F := Ideal)) W (Proc.devRef .tc main_v4) : Vec Ideal S1x128 .f32) (ix2 (0 : Fin 1) k)
      = (W (Proc.devRef .tc main_arg9) : Vec Ideal S128 .f32) (ix1 k) := by
  after_results
  exact shapeCast_a_1a_apply _ _ _ _

theorem host0_v5 (W : Valuation τ sig (Elt Ideal)) (k : Fin 128) :
    (StableHlo.after (hostOps0 (F := Ideal)) W (Proc.devRef .tc main_v5) : Vec Ideal S1x128 .f32) (ix2 (0 : Fin 1) k)
      = (W (Proc.devRef .tc main_arg10) : Vec Ideal S128 .f32) (ix1 k) := by
  after_results
  exact shapeCast_a_1a_apply _ _ _ _

theorem host1_mean (W : Valuation τ sig (Elt Ideal)) (k : Fin 128) {s : EReal}
    (hs : (W (Proc.devRef .tc main_v6_1) : Vec Ideal S1x128 .f32) (ix2 (0 : Fin 1) k) = s) :
    (StableHlo.after (hostOps1 (F := Ideal)) W (Proc.devRef .tc main_v8) : Vec Ideal S1x128 .f32) (ix2 (0 : Fin 1) k)
      = Ideal.div s Cert.Spec.cN := by
  subst hs
  after_results
  rfl

theorem host1_var (W : Valuation τ sig (Elt Ideal)) (k : Fin 128) {s q : EReal}
    (hs : (W (Proc.devRef .tc main_v6_1) : Vec Ideal S1x128 .f32) (ix2 (0 : Fin 1) k) = s)
    (hq : (W (Proc.devRef .tc main_v6_2) : Vec Ideal S1x128 .f32) (ix2 (0 : Fin 1) k) = q) :
    (StableHlo.after (hostOps1 (F := Ideal)) W (Proc.devRef .tc main_v12) : Vec Ideal S1x128 .f32) (ix2 (0 : Fin 1) k)
      = Ideal.div q Cert.Spec.cN - Ideal.div s Cert.Spec.cN * Ideal.div s Cert.Spec.cN := by
  subst hs hq
  after_results
  rfl

def widx (e : IVec S2x1600000 32) : Fin 1600000 → BitVec 32 := fun n => Cert.Spec.wrapWord (e (ix2 (0 : Fin 2) n))
def dst (e : IVec S2x1600000 32) : Fin 1600000 → BitVec 32 := fun n => e (ix2 (1 : Fin 2) n)

theorem host2_src (W : Valuation τ sig (Elt Ideal)) (n : Fin 1600000) :
    (StableHlo.after (hostOps2 (F := Ideal)) W (Proc.devRef .tc main_v15) : IVec S1600000 32) (ix1 n)
      = (W (Proc.devRef .tc main_arg1) : IVec S2x1600000 32) (ix2 (0 : Fin 2) n) := by
  after_results
  refine (shapeCast_1a_a_apply _ _ n).trans ?_
  exact slice2_axis0_apply 0 _ _ (0 : Fin 1) n (0 : Fin 2) rfl

theorem host2_dst (W : Valuation τ sig (Elt Ideal)) (n : Fin 1600000) :
    (StableHlo.after (hostOps2 (F := Ideal)) W (Proc.devRef .tc main_v17) : IVec S1600000 32) (ix1 n)
      = (W (Proc.devRef .tc main_arg1) : IVec S2x1600000 32) (ix2 (1 : Fin 2) n) := by
  after_results
  refine (shapeCast_1a_a_apply _ _ n).trans ?_
  exact slice2_axis0_apply 1 _ _ (0 : Fin 1) n (1 : Fin 2) rfl

theorem host2_v13 (W : Valuation τ sig (Elt Ideal)) :
    StableHlo.after (hostOps2 (F := Ideal)) W (Proc.devRef .tc main_v13) = W (Proc.devRef .tc main_v13) := by
  after_results

abbrev takeOpsWith (red : (⟨S1600000x1, .i1⟩ : BufTy).Contents (Elt Ideal) → (⟨S_, .i1⟩ : BufTy).Contents (Elt Ideal) → (⟨S1600000, .i1⟩ : BufTy).Contents (Elt Ideal)) : List (HloOp τ sig (Elt Ideal)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S1600000, .i32⟩) (broadcastInDim S1600000 ![] bcast_S_S1600000),
    StableHlo.TRef.binary (.of main_v15 : StableHlo.TRef sig ⟨S1600000, .i32⟩) (.of main_call0_v0 : StableHlo.TRef sig ⟨S1600000, .i32⟩) (.of main_call0_v1 : StableHlo.TRef sig ⟨S1600000, .i1⟩) (cmpi .slt),
    StableHlo.TRef.nullary (.of main_call0_c_0 : StableHlo.TRef sig ⟨S_, .i32⟩) (constantI S_ 32 100000#32),
    StableHlo.TRef.unary (.of main_call0_c_0 : StableHlo.TRef sig ⟨S_, .i32⟩) (.of main_call0_v2 : StableHlo.TRef sig ⟨S1600000, .i32⟩) (broadcastInDim S1600000 ![] bcast_S_S1600000),
    StableHlo.TRef.binary (.of main_v15 : StableHlo.TRef sig ⟨S1600000, .i32⟩) (.of main_call0_v2 : StableHlo.TRef sig ⟨S1600000, .i32⟩) (.of main_call0_v3 : StableHlo.TRef sig ⟨S1600000, .i32⟩) addi,
    StableHlo.TRef.ternary (.of main_call0_v1 : StableHlo.TRef sig ⟨S1600000, .i1⟩) (.of main_call0_v3 : StableHlo.TRef sig ⟨S1600000, .i32⟩) (.of main_v15 : StableHlo.TRef sig ⟨S1600000, .i32⟩) (.of main_call0_v4 : StableHlo.TRef sig ⟨S1600000, .i32⟩) select,
    StableHlo.TRef.unary main_call0_call0.v0 (.of main_call0_v5 : StableHlo.TRef sig ⟨S1600000x1, .i32⟩) (broadcastInDim S1600000x1 ![0] bcast_S1600000_S1600000x1_0),
    StableHlo.TRef.nullary (.of main_call0_c_1 : StableHlo.TRef sig ⟨S1, .i32⟩) (constantI S1 32 99999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S1600000x1, .i32⟩) (broadcastInDim S1600000x1 ![] bcast_S_S1600000x1),
    StableHlo.TRef.binary (.of main_call0_v5 : StableHlo.TRef sig ⟨S1600000x1, .i32⟩) (.of main_call0_v6 : StableHlo.TRef sig ⟨S1600000x1, .i32⟩) (.of main_call0_v7 : StableHlo.TRef sig ⟨S1600000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S1600000x1, .i32⟩) (broadcastInDim S1600000x1 ![0, 1] bcast_S1x1_S1600000x1_0_1),
    StableHlo.TRef.binary (.of main_call0_v5 : StableHlo.TRef sig ⟨S1600000x1, .i32⟩) (.of main_call0_v9 : StableHlo.TRef sig ⟨S1600000x1, .i32⟩) (.of main_call0_v10 : StableHlo.TRef sig ⟨S1600000x1, .i1⟩) (cmpi .sle),
    StableHlo.TRef.binary (.of main_call0_v7 : StableHlo.TRef sig ⟨S1600000x1, .i1⟩) (.of main_call0_v10 : StableHlo.TRef sig ⟨S1600000x1, .i1⟩) (.of main_call0_v11 : StableHlo.TRef sig ⟨S1600000x1, .i1⟩) andi,
    StableHlo.TRef.nullary (.of main_call0_c_3 : StableHlo.TRef sig ⟨S_, .i1⟩) (constantI S_ 1 1#1),
    StableHlo.TRef.binary (.of main_call0_v11 : StableHlo.TRef sig ⟨S1600000x1, .i1⟩) (.of main_call0_c_3 : StableHlo.TRef sig ⟨S_, .i1⟩) (.of main_call0_v12 : StableHlo.TRef sig ⟨S1600000, .i1⟩) red,
    StableHlo.TRef.binary (.of main_v13 : StableHlo.TRef sig ⟨S100000x128, .f32⟩) (.of main_call0_v5 : StableHlo.TRef sig ⟨S1600000x1, .i32⟩) (.of main_call0_v13 : StableHlo.TRef sig ⟨S1600000x128, .f32⟩) (fun x i => Host.gather gather_S100000x128_S1600000x1_S1600000x128_1_0_n_n_0_1_1128 x i),
    StableHlo.TRef.unary (.of main_call0_v12 : StableHlo.TRef sig ⟨S1600000, .i1⟩) (.of main_call0_v14 : StableHlo.TRef sig ⟨S1600000x128, .i1⟩) (broadcastInDim S1600000x128 ![0] bcast_S1600000_S1600000x128_0),
    StableHlo.TRef.nullary (.of main_call0_cst : StableHlo.TRef sig ⟨S_, .f32⟩) (constant (F := Ideal) S_ .f32 0x7FC00000#32),
    StableHlo.TRef.unary (.of main_call0_cst : StableHlo.TRef sig ⟨S_, .f32⟩) (.of main_call0_v15 : StableHlo.TRef sig ⟨S1600000x128, .f32⟩) (broadcastInDim S1600000x128 ![] bcast_S_S1600000x128),
    StableHlo.TRef.ternary (.of main_call0_v14 : StableHlo.TRef sig ⟨S1600000x128, .i1⟩) (.of main_call0_v13 : StableHlo.TRef sig ⟨S1600000x128, .f32⟩) (.of main_call0_v15 : StableHlo.TRef sig ⟨S1600000x128, .f32⟩) (.of main_v18 : StableHlo.TRef sig ⟨S1600000x128, .f32⟩) select ]

def wrapped (s : IVec S1600000 32) : IVec S1600000 32 :=
  select (cmpi .slt s (broadcastInDim S1600000 ![] bcast_S_S1600000 (constantI S_ 32 0#32)))
    (addi s (broadcastInDim S1600000 ![] bcast_S_S1600000 (constantI S_ 32 100000#32))) s

def col (s : IVec S1600000 32) : IVec S1600000x1 32 :=
  broadcastInDim S1600000x1 ![0] bcast_S1600000_S1600000x1_0 (wrapped s)

def inBounds (s : IVec S1600000 32) : IVec S1600000x1 1 :=
  andi (cmpi .sge (col s) (broadcastInDim S1600000x1 ![] bcast_S_S1600000x1 (constantI S_ 32 0#32)))
    (cmpi .sle (col s) (broadcastInDim S1600000x1 ![0, 1] bcast_S1x1_S1600000x1_0_1
      (broadcastInDim S1x1 ![1] bcast_S1_S1x1_1 (constantI S1 32 99999#32))))

def takenWith (red : (⟨S1600000x1, .i1⟩ : BufTy).Contents (Elt Ideal) → (⟨S_, .i1⟩ : BufTy).Contents (Elt Ideal) → (⟨S1600000, .i1⟩ : BufTy).Contents (Elt Ideal)) (T : Vec Ideal S100000x128 .f32) (s : IVec S1600000 32) : Vec Ideal S1600000x128 .f32 :=
  select (broadcastInDim S1600000x128 ![0] bcast_S1600000_S1600000x128_0 (red (inBounds s) (constantI S_ 1 1#1)))
    (Host.gather gather_S100000x128_S1600000x1_S1600000x128_1_0_n_n_0_1_1128 T (col s))
    (broadcastInDim S1600000x128 ![] bcast_S_S1600000x128 (constant (F := Ideal) S_ .f32 0x7FC00000#32))

theorem takeWith_v18 (red : (⟨S1600000x1, .i1⟩ : BufTy).Contents (Elt Ideal) → (⟨S_, .i1⟩ : BufTy).Contents (Elt Ideal) → (⟨S1600000, .i1⟩ : BufTy).Contents (Elt Ideal)) (U : Valuation τ sig (Elt Ideal)) :
    (StableHlo.after (takeOpsWith red) U (Proc.devRef .tc main_v18) : Vec Ideal S1600000x128 .f32)
      = takenWith red (U (Proc.devRef .tc main_v13)) (U (Proc.devRef .tc main_v15)) := by
  after_results_simp
  rfl

def andAll : (⟨S1600000x1, .i1⟩ : BufTy).Contents (Elt Ideal) → (⟨S_, .i1⟩ : BufTy).Contents (Elt Ideal) → (⟨S1600000, .i1⟩ : BufTy).Contents (Elt Ideal) :=
  fun x v => Host.reduce IntOp.andi x v reducesTo_S1600000x1_S1600000_d1 h_S_

theorem hostOps2_1_eq : hostOps2_1 (F := Ideal) = takeOpsWith andAll := rfl

theorem wrapped_apply (s : IVec S1600000 32) (n : Fin 1600000) :
    wrapped s (ix1 n) = Cert.Spec.wrapWord (s (ix1 n)) := by
  have hb : (s (ix1 n)).slt 0#32 = decide ((s (ix1 n)).toInt < 0) := by
    simp only [BitVec.slt, BitVec.toInt_zero]
  show (if BitVec.ofBool ((s (ix1 n)).slt 0#32) = 1 then s (ix1 n) + 100000#32 else s (ix1 n))
    = if (s (ix1 n)).toInt < 0 then s (ix1 n) + 100000#32 else s (ix1 n)
  rw [hb]
  by_cases h : (s (ix1 n)).toInt < 0
  · rw [if_pos h, decide_eq_true h]; rfl
  · rw [if_neg h, decide_eq_false h]; rfl

theorem wrapWord_range (w : BitVec 32) (h : -100000 ≤ w.toInt ∧ w.toInt < 100000) :
    0 ≤ (Cert.Spec.wrapWord w).toInt ∧ (Cert.Spec.wrapWord w).toInt ≤ 99999 := by
  unfold Cert.Spec.wrapWord
  by_cases hneg : w.toInt < 0
  · rw [if_pos hneg]
    have e : (w + 100000#32).toInt = w.toInt + 100000 := by
      rw [BitVec.toInt_add]
      have h1 : (100000#32).toInt = 100000 := by decide
      rw [h1]
      exact Int.bmod_eq_of_le (by omega) (by omega)
    omega
  · rw [if_neg hneg]; omega

theorem col_apply (s : IVec S1600000 32) (n : Fin 1600000) (u : Fin 1) :
    col s (ix2 n u) = Cert.Spec.wrapWord (s (ix1 n)) :=
  (HostReads.broadcastInDim_vec_col_apply _ _ n u).trans (wrapped_apply s n)

theorem inBounds_bit (w : BitVec 32) (h : 0 ≤ w.toInt ∧ w.toInt ≤ 99999) :
    IntOp.andi (IntOp.cmpi .sge w 0#32) (IntOp.cmpi .sle w 99999#32) = 1#1 := by
  have h1 : (0#32).sle w = true := by
    simp only [BitVec.sle, BitVec.toInt_zero, decide_eq_true_eq]; exact h.1
  have h2 : w.sle 99999#32 = true := by
    have e : (99999#32).toInt = 99999 := by decide
    simp only [BitVec.sle, e, decide_eq_true_eq]; exact h.2
  show IntOp.andi (BitVec.ofBool ((0#32).sle w)) (BitVec.ofBool (w.sle 99999#32)) = 1#1
  rw [h1, h2]; rfl

theorem inBounds_apply (s : IVec S1600000 32)
    (hs : ∀ n : Fin 1600000, -100000 ≤ (s (ix1 n)).toInt ∧ (s (ix1 n)).toInt < 100000) (i : S1600000x1.Idx) :
    inBounds s i = 1#1 := by
  obtain ⟨p, q, rfl⟩ : ∃ (p : Fin 1600000) (q : Fin 1), i = ix2 p q := ⟨i 0, i 1, eq_ix2 i⟩
  show IntOp.andi (IntOp.cmpi .sge (col s (ix2 p q)) 0#32) (IntOp.cmpi .sle (col s (ix2 p q)) 99999#32) = 1#1
  rw [col_apply]
  exact inBounds_bit _ (wrapWord_range _ (hs p))

theorem andAll_inBounds (s : IVec S1600000 32)
    (hs : ∀ n : Fin 1600000, -100000 ≤ (s (ix1 n)).toInt ∧ (s (ix1 n)).toInt < 100000) (n : Fin 1600000) :
    andAll (inBounds s) (constantI S_ 1 1#1) (ix1 n) = 1#1 :=
  HostReads.reduce_andi_of_forall_one _ _ _ _ _ rfl (inBounds_apply s hs)

theorem taken_apply (T : Vec Ideal S100000x128 .f32) (s : IVec S1600000 32)
    (hs : ∀ n : Fin 1600000, -100000 ≤ (s (ix1 n)).toInt ∧ (s (ix1 n)).toInt < 100000) (n : Fin 1600000) (c : Fin 128) :
    takenWith andAll T s (ix2 n c) = T (ix2 (Cert.Spec.rowOf (Cert.Spec.wrapWord (s (ix1 n)))) c) := by
  unfold takenWith
  rw [select_apply, HostReads.broadcastInDim_vec_rows_apply, andAll_inBounds s hs n, select_one]
  refine (GatherRows.gather_rows _ rfl rfl rfl rfl rfl T (col s) n c (by decide)).trans ?_
  refine congrArg (fun p : Fin 100000 => T (ix2 p c)) (Fin.ext ?_)
  show min (col s (ix2 n 0)).toInt.toNat (100000 - 1) = min (Cert.Spec.wrapWord (s (ix1 n))).toInt.toNat 99999
  rw [col_apply]

def dcol (d : IVec S1600000 32) : IVec S1600000x1 32 :=
  broadcastInDim S1600000x1 ![0] bcast_S1600000_S1600000x1_0 d

def summedT (d : IVec S1600000 32) (u : Vec Ideal S1600000x128 .f32) : Vec Ideal S100000x128 .f32 :=
  Host.scatterAdd scatter_S100000x128_S1600000x1_S1600000x128_1_0_0_1
    (broadcastInDim S100000x128 ![] bcast_S_S100000x128 (constant (F := Ideal) S_ .f32 0x00000000#32)) (dcol d) u

def cntT (d : IVec S1600000 32) : Vec Ideal S100000 .f32 :=
  Host.scatterAdd scatter_S100000_S1600000x1_S1600000_n_0_0_1
    (broadcastInDim S100000 ![] bcast_S_S100000 (constant (F := Ideal) S_ .f32 0x00000000#32)) (dcol d)
    (broadcastInDim S1600000 ![] bcast_S_S1600000 (constant (F := Ideal) S_ .f32 0x3F800000#32))

def aggT (d : IVec S1600000 32) (u : Vec Ideal S1600000x128 .f32) : Vec Ideal S100000x128 .f32 :=
  Host.divf (F := Ideal) (summedT d u)
    (broadcastInDim S100000x128 ![0, 1] bcast_S100000x1_S100000x128_0_1
      (broadcastInDim S100000x1 ![0] bcast_S100000_S100000x1_0
        (maximumf (cntT d) (broadcastInDim S100000 ![] bcast_S_S100000 (constant (F := Ideal) S_ .f32 0x3F800000#32)))))

theorem host22_v30 (U : Valuation τ sig (Elt Ideal)) :
    (StableHlo.after (hostOps2_2 (F := Ideal)) U (Proc.devRef .tc main_v30) : Vec Ideal S100000x128 .f32)
      = aggT (U (Proc.devRef .tc main_v17)) (U (Proc.devRef .tc main_v18)) := by
  after_results
  rfl

theorem dcol_apply (d : IVec S1600000 32) (n : Fin 1600000) (u : Fin 1) : dcol d (ix2 n u) = d (ix1 n) :=
  HostReads.broadcastInDim_vec_col_apply _ _ n u

theorem zeros_apply {t : Shape} (h : S_.BroadcastsInDim t ![]) (i : t.Idx) :
    broadcastInDim t ![] h (constant (F := Ideal) S_ .f32 0x00000000#32) i = (0 : EReal) := Ideal.ofBits_zero_f32
theorem ones_apply {t : Shape} (h : S_.BroadcastsInDim t ![]) (i : t.Idx) :
    broadcastInDim t ![] h (constant (F := Ideal) S_ .f32 0x3F800000#32) i = Cert.Spec.cOne := rfl

theorem summedT_apply (d : IVec S1600000 32) (u : Vec Ideal S1600000x128 .f32) (r : Fin 100000) (c : Fin 128) :
    summedT d u (ix2 r c) = 0 + ∑ n : Fin 1600000, if (d (ix1 n)).toInt = (r.val : ℤ) then u (ix2 n c) else 0 := by
  unfold summedT
  refine (Cert.EdgeMean.scatterAdd_rows _ rfl rfl rfl rfl _ _ _ r c).trans ?_
  rw [zeros_apply]
  exact congrArg (fun t : EReal => 0 + t) (Finset.sum_congr rfl fun n _ => by rw [dcol_apply])

theorem cntT_apply (d : IVec S1600000 32) (r : Fin 100000) :
    cntT d (ix1 r) = 0 + ∑ n : Fin 1600000, if (d (ix1 n)).toInt = (r.val : ℤ) then Cert.Spec.cOne else 0 := by
  unfold cntT
  refine (Cert.EdgeMean.scatterAdd_vec _ rfl rfl rfl rfl _ _ _ r).trans ?_
  rw [zeros_apply]
  exact congrArg (fun t : EReal => 0 + t) (Finset.sum_congr rfl fun n _ => by rw [dcol_apply, ones_apply])

attribute [local irreducible] summedT cntT

theorem aggT_apply (d : IVec S1600000 32) (u : Vec Ideal S1600000x128 .f32) (r : Fin 100000) (c : Fin 128) :
    aggT d u (ix2 r c) = Ideal.div (summedT d u (ix2 r c)) (max (cntT d (ix1 r)) Cert.Spec.cOne) := by
  unfold aggT
  rw [hostDivf_apply]
  refine congrArg (Ideal.div (summedT d u (ix2 r c))) ?_
  refine (StableHlo.Predicate.bcast_of_col _ _ r c).trans ?_
  have hix : StableHlo.Predicate.ixP r = ix2 r (0 : Fin 1) := by
    funext a; match a with | ⟨0, _⟩ => rfl | ⟨1, _⟩ => rfl
  rw [hix]
  refine (HostReads.broadcastInDim_vec_col_apply _ _ r 0).trans ?_
  rw [maximumf_apply, ones_apply]

theorem host21_v17 (U : Valuation τ sig (Elt Ideal)) :
    StableHlo.after (hostOps2_1 (F := Ideal)) U (Proc.devRef .tc main_v17) = U (Proc.devRef .tc main_v17) := by
  after_results_simp

theorem host21_v18 (U : Valuation τ sig (Elt Ideal)) :
    (StableHlo.after (hostOps2_1 (F := Ideal)) U (Proc.devRef .tc main_v18) : Vec Ideal S1600000x128 .f32)
      = takenWith andAll (U (Proc.devRef .tc main_v13)) (U (Proc.devRef .tc main_v15)) := by
  rw [hostOps2_1_eq]
  exact takeWith_v18 andAll U

theorem host2_agg (W : Valuation τ sig (Elt Ideal)) {f : Cert.Spec.Rows 128} {e : IVec S2x1600000 32}
    (hf : ∀ r c', (W (Proc.devRef .tc main_v13) : Vec Ideal S100000x128 .f32) (ix2 r c') = f r c')
    (he : (W (Proc.devRef .tc main_arg1) : IVec S2x1600000 32) = e)
    (hsrc : ∀ n : Fin 1600000, -100000 ≤ (e (ix2 (0 : Fin 2) n)).toInt ∧ (e (ix2 (0 : Fin 2) n)).toInt < 100000)
    (r : Fin 100000) (k : Fin 128) :
    (StableHlo.after (hostOps2_2 (F := Ideal)) (StableHlo.after (hostOps2_1 (F := Ideal)) (StableHlo.after (hostOps2 (F := Ideal)) W))
        (Proc.devRef .tc main_v30) : Vec Ideal S100000x128 .f32) (ix2 r k)
      = Cert.Spec.agg f (widx e) (dst e) r k := by
  subst he
  obtain rfl : (fun r c' => (W (Proc.devRef .tc main_v13) : Vec Ideal S100000x128 .f32) (ix2 r c')) = f := funext fun r => funext fun c' => hf r c'
  have hs : ∀ n : Fin 1600000,
      -100000 ≤ ((StableHlo.after (hostOps2 (F := Ideal)) W (Proc.devRef .tc main_v15) : IVec S1600000 32) (ix1 n)).toInt
        ∧ ((StableHlo.after (hostOps2 (F := Ideal)) W (Proc.devRef .tc main_v15) : IVec S1600000 32) (ix1 n)).toInt < 100000 :=
    fun n => by rw [host2_src]; exact hsrc n
  have h18 : ∀ (n : Fin 1600000) (c : Fin 128),
      (StableHlo.after (hostOps2_1 (F := Ideal)) (StableHlo.after (hostOps2 (F := Ideal)) W) (Proc.devRef .tc main_v18)
          : Vec Ideal S1600000x128 .f32) (ix2 n c)
        = (W (Proc.devRef .tc main_v13) : Vec Ideal S100000x128 .f32)
            (ix2 (Cert.Spec.rowOf (widx (W (Proc.devRef .tc main_arg1)) n)) c) := fun n c => by
    rw [host21_v18, taken_apply _ _ hs n c, host2_v13, host2_src]
    rfl
  have h17 : ∀ n : Fin 1600000,
      (StableHlo.after (hostOps2_1 (F := Ideal)) (StableHlo.after (hostOps2 (F := Ideal)) W) (Proc.devRef .tc main_v17)
          : IVec S1600000 32) (ix1 n) = dst (W (Proc.devRef .tc main_arg1)) n := fun n => by
    rw [host21_v17, host2_dst]
    rfl
  rw [host22_v30, aggT_apply, summedT_apply, cntT_apply]
  unfold Cert.Spec.agg Cert.Spec.summed Cert.Spec.cnt
  simp only [h17, h18]

theorem host3_mean (W : Valuation τ sig (Elt Ideal)) (k : Fin 128) {s : EReal}
    (hs : (W (Proc.devRef .tc main_v31_1) : Vec Ideal S1x128 .f32) (ix2 (0 : Fin 1) k) = s) :
    (StableHlo.after (hostOps3 (F := Ideal)) W (Proc.devRef .tc main_v33) : Vec Ideal S1x128 .f32) (ix2 (0 : Fin 1) k)
      = Ideal.div s Cert.Spec.cN := by
  subst hs
  after_results
  rfl

theorem host3_var (W : Valuation τ sig (Elt Ideal)) (k : Fin 128) {s q : EReal}
    (hs : (W (Proc.devRef .tc main_v31_1) : Vec Ideal S1x128 .f32) (ix2 (0 : Fin 1) k) = s)
    (hq : (W (Proc.devRef .tc main_v31_2) : Vec Ideal S1x128 .f32) (ix2 (0 : Fin 1) k) = q) :
    (StableHlo.after (hostOps3 (F := Ideal)) W (Proc.devRef .tc main_v37) : Vec Ideal S1x128 .f32) (ix2 (0 : Fin 1) k)
      = Ideal.div q Cert.Spec.cN - Ideal.div s Cert.Spec.cN * Ideal.div s Cert.Spec.cN := by
  subst hs hq
  after_results
  rfl

end Cert.KernelIdeal.Val

end
-- ==== Proof.KAsm.lean ====
import proofs.«427484_j7000796693090_1_alg».proof.Proof.KiRun
import proofs.«427484_j7000796693090_1_alg».proof.Proof.KVal0
import proofs.«427484_j7000796693090_1_alg».proof.Proof.KVal1
import proofs.«427484_j7000796693090_1_alg».proof.Proof.KVal2
import proofs.«427484_j7000796693090_1_alg».proof.Proof.KVal3
import proofs.«427484_j7000796693090_1_alg».proof.Proof.KHost
import proofs.«427484_j7000796693090_1_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat)
open Cert.Spec (Rows Wgt Vec128)

theorem at_eq {s : Shape} {x y : Vec Ideal s .f32} (h : x = y) (i : s.Idx) : x i = y i := congrFun h i

variable (m : (ℓ : Loc nD τ sig) → Buf (Elt Ideal) ℓ) (ρ : Dev nD → PrngReg) (c : Dev nD)

abbrev xK : Rows 48 := fun r l => (m ((c : Thread nD τ).loc main_arg0) : Vec Ideal S100000x48 .f32) (ix2 r l)
abbrev w1K : Wgt 48 := fun c' l => (m ((c : Thread nD τ).loc main_arg2) : Vec Ideal S128x48 .f32) (ix2 c' l)
abbrev b1K : Vec128 := fun c' => (m ((c : Thread nD τ).loc main_arg3) : Vec Ideal S128 .f32) (ix1 c')
abbrev g1K : Vec128 := fun c' => (m ((c : Thread nD τ).loc main_arg4) : Vec Ideal S128 .f32) (ix1 c')
abbrev be1K : Vec128 := fun c' => (m ((c : Thread nD τ).loc main_arg5) : Vec Ideal S128 .f32) (ix1 c')
abbrev wlK : Wgt 128 := fun c' l => (m ((c : Thread nD τ).loc main_arg6) : Vec Ideal S128x128 .f32) (ix2 c' l)
abbrev blK : Vec128 := fun c' => (m ((c : Thread nD τ).loc main_arg7) : Vec Ideal S128 .f32) (ix1 c')
abbrev wrK : Wgt 128 := fun c' l => (m ((c : Thread nD τ).loc main_arg8) : Vec Ideal S128x128 .f32) (ix2 c' l)
abbrev g2K : Vec128 := fun c' => (m ((c : Thread nD τ).loc main_arg9) : Vec Ideal S128 .f32) (ix1 c')
abbrev be2K : Vec128 := fun c' => (m ((c : Thread nD τ).loc main_arg10) : Vec Ideal S128 .f32) (ix1 c')
abbrev eK : IVec S2x1600000 32 := m ((c : Thread nD τ).loc main_arg1)

abbrev hK : Rows 128 := Cert.Spec.dense (xK m c) (w1K m c) (b1K m c)
abbrev fK : Rows 128 := fun r c' => (W10 m ρ c (Proc.devRef .tc main_v13) : Vec Ideal S100000x128 .f32) (ix2 r c')
abbrev sK : Rows 128 :=
  Cert.Spec.sage (Cert.Spec.agg (fK m ρ c) (widx (eK m c)) (dst (eK m c))) (fK m ρ c) (wlK m c) (blK m c) (wrK m c)

theorem W1_arg (b : Ref sig .tc) (h : b ∉ hostOps0_W) :
    W1 m ρ c (Proc.devRef .tc b) = m ((c : Thread nD τ).loc b) :=
  (W1_of m ρ c b h).trans rfl

theorem W1_v0 (k : Fin 128) : (W1 m ρ c (Proc.devRef .tc main_v0) : Vec Ideal S1x128 .f32) (ix2 (0 : Fin 1) k) = b1K m c k := host0_v0 (W0 m ρ c) k
theorem W1_v1 (k : Fin 128) : (W1 m ρ c (Proc.devRef .tc main_v1) : Vec Ideal S1x128 .f32) (ix2 (0 : Fin 1) k) = g1K m c k := host0_v1 (W0 m ρ c) k
theorem W1_v2 (k : Fin 128) : (W1 m ρ c (Proc.devRef .tc main_v2) : Vec Ideal S1x128 .f32) (ix2 (0 : Fin 1) k) = be1K m c k := host0_v2 (W0 m ρ c) k
theorem W1_v3 (k : Fin 128) : (W1 m ρ c (Proc.devRef .tc main_v3) : Vec Ideal S1x128 .f32) (ix2 (0 : Fin 1) k) = blK m c k := host0_v3 (W0 m ρ c) k
theorem W1_v4 (k : Fin 128) : (W1 m ρ c (Proc.devRef .tc main_v4) : Vec Ideal S1x128 .f32) (ix2 (0 : Fin 1) k) = g2K m c k := host0_v4 (W0 m ρ c) k
theorem W1_v5 (k : Fin 128) : (W1 m ρ c (Proc.devRef .tc main_v5) : Vec Ideal S1x128 .f32) (ix2 (0 : Fin 1) k) = be2K m c k := host0_v5 (W0 m ρ c) k

theorem W4_eq_W1 (b : Ref sig .tc) (h4 : ∀ w, Pipeline.arrRef spec1 w ≠ b) (h3 : b ∉ hostOps1_W)
    (h2 : ∀ w, Pipeline.arrRef spec0 w ≠ b) : W4 m ρ c (Proc.devRef .tc b) = W1 m ρ c (Proc.devRef .tc b) :=
  (W4_of_ne m ρ c b h4).trans <| (W3_of m ρ c b h3).trans <| W2_of_ne m ρ c b h2

theorem W7_eq_W4 (b : Ref sig .tc) (h7 : b ∉ hostOps2_2_W) (h6 : b ∉ hostOps2_1_W) (h5 : b ∉ hostOps2_W) :
    W7 m ρ c (Proc.devRef .tc b) = W4 m ρ c (Proc.devRef .tc b) :=
  (W7_of m ρ c b h7).trans <| (W6_of m ρ c b h6).trans <| W5_of m ρ c b h5

theorem W9_eq_W7 (b : Ref sig .tc) (h9 : b ∉ hostOps3_W) (h8 : ∀ w, Pipeline.arrRef spec2 w ≠ b) :
    W9 m ρ c (Proc.devRef .tc b) = W7 m ρ c (Proc.devRef .tc b) :=
  (W9_of m ρ c b h9).trans <| W8_of_ne m ρ c b h8

-- The first launch reads the arguments as launched, so the projection it computes is the specification's.
theorem dense1 : Cert.Spec.dense (xs (V1 m ρ) c) (w1 (V1 m ρ) c) (b1 (V1 m ρ) c) = hK m c :=
  congr (congr (congrArg Cert.Spec.dense (funext fun r => funext fun l => at_eq (W1_arg m ρ c main_arg0 (by decide)) (ix2 r l)))
    (funext fun c' => funext fun l => at_eq (W1_arg m ρ c main_arg2 (by decide)) (ix2 c' l))) (funext (W1_v0 m ρ c))

theorem W2_h (r : Fin 100000) (k : Fin 128) : (W2 m ρ c (Proc.devRef .tc main_v6_0) : Vec Ideal S100000x128 .f32) (ix2 r k) = hK m c r k :=
  (at_eq (W2_arr m ρ c 3) (ix2 r k)).trans <| (value0_h (V1 m ρ) c r k).trans (congrFun (congrFun (dense1 m ρ c) r) k)

theorem W2_sum (k : Fin 128) :
    (W2 m ρ c (Proc.devRef .tc main_v6_1) : Vec Ideal S1x128 .f32) (ix2 (0 : Fin 1) k) = Cert.Spec.colSum (hK m c) k :=
  (at_eq (W2_arr m ρ c 4) (ix2 (0 : Fin 1) k)).trans <| (value0_sum (V1 m ρ) c k).trans (congrArg (Cert.Spec.colSum · k) (dense1 m ρ c))

theorem W2_sumsq (k : Fin 128) :
    (W2 m ρ c (Proc.devRef .tc main_v6_2) : Vec Ideal S1x128 .f32) (ix2 (0 : Fin 1) k)
      = Cert.Spec.colSum (fun r c' => hK m c r c' * hK m c r c') k :=
  (at_eq (W2_arr m ρ c 5) (ix2 (0 : Fin 1) k)).trans <| (value0_sumsq (V1 m ρ) c k).trans
    (congrArg (fun h : Rows 128 => Cert.Spec.colSum (fun r c' => h r c' * h r c') k) (dense1 m ρ c))

theorem V3_h (r : Fin 100000) (k : Fin 128) : (W3 m ρ c (Proc.devRef .tc main_v6_0) : Vec Ideal S100000x128 .f32) (ix2 r k) = hK m c r k :=
  (at_eq (W3_of m ρ c main_v6_0 (by decide)) (ix2 r k)).trans (W2_h m ρ c r k)

theorem V3_mean (k : Fin 128) :
    (W3 m ρ c (Proc.devRef .tc main_v8) : Vec Ideal S1x128 .f32) (ix2 (0 : Fin 1) k) = Cert.Spec.mean (hK m c) k :=
  host1_mean (W2 m ρ c) k (W2_sum m ρ c k)

theorem V3_var (k : Fin 128) :
    (W3 m ρ c (Proc.devRef .tc main_v12) : Vec Ideal S1x128 .f32) (ix2 (0 : Fin 1) k) = Cert.Spec.varK (hK m c) k :=
  host1_var (W2 m ρ c) k (W2_sum m ρ c k) (W2_sumsq m ρ c k)

theorem V3_g (k : Fin 128) : (W3 m ρ c (Proc.devRef .tc main_v1) : Vec Ideal S1x128 .f32) (ix2 (0 : Fin 1) k) = g1K m c k :=
  (at_eq ((W3_of m ρ c main_v1 (by decide)).trans (W2_of_ne m ρ c main_v1 (by decide))) (ix2 (0 : Fin 1) k)).trans (W1_v1 m ρ c k)

theorem V3_b (k : Fin 128) : (W3 m ρ c (Proc.devRef .tc main_v2) : Vec Ideal S1x128 .f32) (ix2 (0 : Fin 1) k) = be1K m c k :=
  (at_eq ((W3_of m ρ c main_v2 (by decide)).trans (W2_of_ne m ρ c main_v2 (by decide))) (ix2 (0 : Fin 1) k)).trans (W1_v2 m ρ c k)

-- The first result: the rectified normalisation of the projection, its variance the mean of squares less the squared mean.
theorem featK (r : Fin 100000) (k : Fin 128) :
    (W10 m ρ c (Proc.devRef .tc main_v13) : Vec Ideal S100000x128 .f32) (ix2 r k)
      = Cert.Spec.feat Cert.Spec.varK (xK m c) (w1K m c) (b1K m c) (g1K m c) (be1K m c) r k :=
  (at_eq (W10_feat m ρ c) (ix2 r k)).trans <|
    value1 (V3 m ρ) c r k (V3_h m ρ c r k) (V3_mean m ρ c k) (V3_var m ρ c k) (V3_g m ρ c k) (V3_b m ρ c k)

theorem W4_feat : W4 m ρ c (Proc.devRef .tc main_v13) = W10 m ρ c (Proc.devRef .tc main_v13) :=
  (W4_arr m ρ c 5).trans (W10_feat m ρ c).symm

theorem W4_edges : (W4 m ρ c (Proc.devRef .tc main_arg1) : IVec S2x1600000 32) = eK m c :=
  (W4_eq_W1 m ρ c main_arg1 (by decide) (by decide) (by decide)).trans (W1_arg m ρ c main_arg1 (by decide))

theorem V7_agg (hsrc : ∀ n : Fin 1600000, -100000 ≤ (eK m c (ix2 (0 : Fin 2) n)).toInt ∧ (eK m c (ix2 (0 : Fin 2) n)).toInt < 100000)
    (r : Fin 100000) (l : Fin 128) :
    (W7 m ρ c (Proc.devRef .tc main_v30) : Vec Ideal S100000x128 .f32) (ix2 r l)
      = Cert.Spec.agg (fK m ρ c) (widx (eK m c)) (dst (eK m c)) r l :=
  host2_agg (W4 m ρ c) (fun r c' => at_eq (W4_feat m ρ c) (ix2 r c')) (W4_edges m ρ c) hsrc r l

theorem V7_feat (r : Fin 100000) (l : Fin 128) : (W7 m ρ c (Proc.devRef .tc main_v13) : Vec Ideal S100000x128 .f32) (ix2 r l) = fK m ρ c r l :=
  at_eq ((W7_eq_W4 m ρ c main_v13 (by decide) (by decide) (by decide)).trans (W4_feat m ρ c)) (ix2 r l)

theorem V7_arg (b : Ref sig .tc) (h7 : b ∉ hostOps2_2_W) (h6 : b ∉ hostOps2_1_W) (h5 : b ∉ hostOps2_W)
    (h4 : ∀ w, Pipeline.arrRef spec1 w ≠ b) (h3 : b ∉ hostOps1_W) (h2 : ∀ w, Pipeline.arrRef spec0 w ≠ b) (h1 : b ∉ hostOps0_W) :
    W7 m ρ c (Proc.devRef .tc b) = m ((c : Thread nD τ).loc b) :=
  (W7_eq_W4 m ρ c b h7 h6 h5).trans <| (W4_eq_W1 m ρ c b h4 h3 h2).trans <| W1_arg m ρ c b h1

theorem V7_wl (c' : Fin 128) (l : Fin 128) : (W7 m ρ c (Proc.devRef .tc main_arg6) : Vec Ideal S128x128 .f32) (ix2 c' l) = wlK m c c' l :=
  at_eq (V7_arg m ρ c main_arg6 (by decide) (by decide) (by decide) (by decide) (by decide) (by decide) (by decide)) (ix2 c' l)

theorem V7_wr (c' : Fin 128) (l : Fin 128) : (W7 m ρ c (Proc.devRef .tc main_arg8) : Vec Ideal S128x128 .f32) (ix2 c' l) = wrK m c c' l :=
  at_eq (V7_arg m ρ c main_arg8 (by decide) (by decide) (by decide) (by decide) (by decide) (by decide) (by decide)) (ix2 c' l)

theorem V7_bl (k : Fin 128) : (W7 m ρ c (Proc.devRef .tc main_v3) : Vec Ideal S1x128 .f32) (ix2 (0 : Fin 1) k) = blK m c k :=
  (at_eq ((W7_eq_W4 m ρ c main_v3 (by decide) (by decide) (by decide)).trans
    (W4_eq_W1 m ρ c main_v3 (by decide) (by decide) (by decide))) (ix2 (0 : Fin 1) k)).trans (W1_v3 m ρ c k)

section
variable (hsrc : ∀ n : Fin 1600000, -100000 ≤ (eK m c (ix2 (0 : Fin 2) n)).toInt ∧ (eK m c (ix2 (0 : Fin 2) n)).toInt < 100000)
include hsrc

-- The third launch reads the edge means of the first result, the first result and the second layer's arguments.
theorem sage2 : Launch2.sageOf (V7 m ρ) c = sK m ρ c :=
  show Cert.Spec.sage _ _ _ _ _ = Cert.Spec.sage _ _ _ _ _ from congr (congr (congr (congr (congrArg Cert.Spec.sage (funext fun r => funext fun l => V7_agg m ρ c hsrc r l))
    (funext fun r => funext fun l => V7_feat m ρ c r l)) (funext fun c' => funext fun l => V7_wl m ρ c c' l)) (funext (V7_bl m ρ c)))
    (funext fun c' => funext fun l => V7_wr m ρ c c' l)

theorem W8_s (r : Fin 100000) (k : Fin 128) : (W8 m ρ c (Proc.devRef .tc main_v31_0) : Vec Ideal S100000x128 .f32) (ix2 r k) = sK m ρ c r k :=
  (at_eq (W8_arr m ρ c 5) (ix2 r k)).trans <| (value2_s (V7 m ρ) c r k).trans (congrFun (congrFun (sage2 m ρ c hsrc) r) k)

theorem W8_sum (k : Fin 128) :
    (W8 m ρ c (Proc.devRef .tc main_v31_1) : Vec Ideal S1x128 .f32) (ix2 (0 : Fin 1) k) = Cert.Spec.colSum (sK m ρ c) k :=
  (at_eq (W8_arr m ρ c 6) (ix2 (0 : Fin 1) k)).trans <| (value2_sum (V7 m ρ) c k).trans (congrArg (Cert.Spec.colSum · k) (sage2 m ρ c hsrc))

theorem W8_sumsq (k : Fin 128) :
    (W8 m ρ c (Proc.devRef .tc main_v31_2) : Vec Ideal S1x128 .f32) (ix2 (0 : Fin 1) k)
      = Cert.Spec.colSum (fun r c' => sK m ρ c r c' * sK m ρ c r c') k :=
  (at_eq (W8_arr m ρ c 7) (ix2 (0 : Fin 1) k)).trans <| (value2_sumsq (V7 m ρ) c k).trans
    (congrArg (fun h : Rows 128 => Cert.Spec.colSum (fun r c' => h r c' * h r c') k) (sage2 m ρ c hsrc))

theorem V9_s (r : Fin 100000) (k : Fin 128) : (W9 m ρ c (Proc.devRef .tc main_v31_0) : Vec Ideal S100000x128 .f32) (ix2 r k) = sK m ρ c r k :=
  (at_eq (W9_of m ρ c main_v31_0 (by decide)) (ix2 r k)).trans (W8_s m ρ c hsrc r k)

theorem V9_mean (k : Fin 128) :
    (W9 m ρ c (Proc.devRef .tc main_v33) : Vec Ideal S1x128 .f32) (ix2 (0 : Fin 1) k) = Cert.Spec.mean (sK m ρ c) k :=
  host3_mean (W8 m ρ c) k (W8_sum m ρ c hsrc k)

theorem V9_var (k : Fin 128) :
    (W9 m ρ c (Proc.devRef .tc main_v37) : Vec Ideal S1x128 .f32) (ix2 (0 : Fin 1) k) = Cert.Spec.varK (sK m ρ c) k :=
  host3_var (W8 m ρ c) k (W8_sum m ρ c hsrc k) (W8_sumsq m ρ c hsrc k)

end

theorem V9_g (k : Fin 128) : (W9 m ρ c (Proc.devRef .tc main_v4) : Vec Ideal S1x128 .f32) (ix2 (0 : Fin 1) k) = g2K m c k :=
  (at_eq ((W9_eq_W7 m ρ c main_v4 (by decide) (by decide)).trans <|
    (W7_eq_W4 m ρ c main_v4 (by decide) (by decide) (by decide)).trans
      (W4_eq_W1 m ρ c main_v4 (by decide) (by decide) (by decide))) (ix2 (0 : Fin 1) k)).trans (W1_v4 m ρ c k)

theorem V9_b (k : Fin 128) : (W9 m ρ c (Proc.devRef .tc main_v5) : Vec Ideal S1x128 .f32) (ix2 (0 : Fin 1) k) = be2K m c k :=
  (at_eq ((W9_eq_W7 m ρ c main_v5 (by decide) (by decide)).trans <|
    (W7_eq_W4 m ρ c main_v5 (by decide) (by decide) (by decide)).trans
      (W4_eq_W1 m ρ c main_v5 (by decide) (by decide) (by decide))) (ix2 (0 : Fin 1) k)).trans (W1_v5 m ρ c k)

-- The second result: the normalisation of the two dense layers over the first result and its edge means.
theorem outK (hsrc : ∀ n : Fin 1600000, -100000 ≤ (eK m c (ix2 (0 : Fin 2) n)).toInt ∧ (eK m c (ix2 (0 : Fin 2) n)).toInt < 100000)
    (r : Fin 100000) (k : Fin 128) :
    (W10 m ρ c (Proc.devRef .tc main_v38) : Vec Ideal S100000x128 .f32) (ix2 r k)
      = Cert.Spec.out Cert.Spec.varK (fK m ρ c) (widx (eK m c)) (dst (eK m c)) (wlK m c) (blK m c) (wrK m c) (g2K m c) (be2K m c) r k :=
  (at_eq (W10_out m ρ c) (ix2 r k)).trans <|
    value3 (V9 m ρ) c r k (V9_s m ρ c hsrc r k) (V9_mean m ρ c hsrc k) (V9_var m ρ c hsrc k) (V9_g m ρ c k) (V9_b m ρ c k)

end Cert.KernelIdeal.Val

end
-- ==== Proof.RVal.lean ====
import proofs.«427484_j7000796693090_1_alg».proof.Proof.Gen.ReferenceIdeal.Read
import proofs.«427484_j7000796693090_1_alg».proof.Proof.Spec
import proofs.«427484_j7000796693090_1_alg».proof.Proof.LibEdgeMean

noncomputable section

namespace Cert.ReferenceIdeal.RVal

open Cert.ReferenceIdeal Cert.ReferenceIdeal.Gen Cert.ReferenceIdeal.Read Idealize.ShloMosaic Idealize.ShloMosaic.ValueIdx

abbrev Arr (s : Shape) : Type := (⟨s, .f32⟩ : BufTy).Contents (Elt Ideal)
abbrev Edges : Type := (⟨S2x1600000, .i32⟩ : BufTy).Contents (Elt Ideal)

abbrev rows48 (v : Arr S100000x48) : Cert.Spec.Rows 48 := fun r l => v (ix2 r l)
abbrev rows (v : Arr S100000x128) : Cert.Spec.Rows 128 := fun r c => v (ix2 r c)
abbrev wgt48 (v : Arr S128x48) : Cert.Spec.Wgt 48 := fun c l => v (ix2 c l)
abbrev wgt (v : Arr S128x128) : Cert.Spec.Wgt 128 := fun c l => v (ix2 c l)
abbrev vec (v : Arr S128) : Cert.Spec.Vec128 := fun c => v (ix1 c)

def widx (x1 : Edges) : Fin 1600000 → BitVec 32 := fun n => Cert.Spec.wrapWord (x1 (ix2 (0 : Fin 2) n))
def dst (x1 : Edges) : Fin 1600000 → BitVec 32 := fun n => x1 (ix2 (1 : Fin 2) n)

section
variable (x0 : Arr S100000x48) (x1 : Edges) (x2 : Arr S128x48) (x3 x4 x5 : Arr S128)
  (x6 : Arr S128x128) (x7 : Arr S128) (x8 : Arr S128x128) (x9 x10 : Arr S128)

abbrev hRows : Cert.Spec.Rows 128 := fun r c => val_main_v4 (F := Ideal) x0 x2 x3 (ix2 r c)
abbrev fRows : Cert.Spec.Rows 128 := fun r c => val_main_v30 (F := Ideal) x0 x2 x3 x4 x5 (ix2 r c)
abbrev sRows : Cert.Spec.Rows 128 := fun r c => val_main_v61 (F := Ideal) x0 x1 x2 x3 x4 x5 x6 x7 x8 (ix2 r c)

theorem lidx_v1 (r : Fin 100000) (c : Fin 128) (k : Fin 48) : lidx_main_v1 (ix2 r c) k = ix2 r k := by
  funext a; match a with | ⟨0, _⟩ => rfl | ⟨1, _⟩ => rfl
theorem ridx_v1 (r : Fin 100000) (c : Fin 128) (k : Fin 48) : idx_main_v0 (ridx_main_v1 (ix2 r c) k) = ix2 c k := by
  funext a; match a with | ⟨0, _⟩ => rfl | ⟨1, _⟩ => rfl
theorem bidx_v3 (r : Fin 100000) (c : Fin 128) : idx_main_v2 (idx_main_v3 (ix2 r c)) = ix1 c := by
  funext a; match a with | ⟨0, _⟩ => rfl

theorem h_eq (r : Fin 100000) (c : Fin 128) :
    val_main_v4 (F := Ideal) x0 x2 x3 (ix2 r c)
      = Cert.Spec.dense (fun r l => x0 (ix2 r l)) (fun c l => x2 (ix2 c l)) (fun c => x3 (ix1 c)) r c := by
  rw [val_main_v4_apply, val_main_v1_apply, val_main_v3_apply, val_main_v2_apply, bidx_v3]
  simp only [val_main_v0_apply, lidx_v1, ridx_v1, Ideal.addf_def]
  rfl

theorem hRows_eq :
    hRows x0 x2 x3 = Cert.Spec.dense (fun r l => x0 (ix2 r l)) (fun c l => x2 (ix2 c l)) (fun c => x3 (ix1 c)) :=
  funext fun r => funext fun c => h_eq x0 x2 x3 r c

theorem sidx_v5 (c : Fin 128) (k : Fin 100000) : idx_main_v5 (ix1 c) k = ix2 k c := by
  funext a; match a with | ⟨0, _⟩ => rfl | ⟨1, _⟩ => rfl
theorem sidx_v12 (c : Fin 128) (k : Fin 100000) : idx_main_v12 (ix1 c) k = ix2 k c := by
  funext a; match a with | ⟨0, _⟩ => rfl | ⟨1, _⟩ => rfl
theorem bidx_v9 (r : Fin 100000) (c : Fin 128) : idx_main_v8 (idx_main_v9 (ix2 r c)) = ix1 c := by
  funext a; match a with | ⟨0, _⟩ => rfl
theorem bidx_v16 (r : Fin 100000) (c : Fin 128) : idx_main_v15 (idx_main_v16 (ix2 r c)) = ix1 c := by
  funext a; match a with | ⟨0, _⟩ => rfl
theorem bidx_v22 (r : Fin 100000) (c : Fin 128) : idx_main_v21 (idx_main_v22 (ix2 r c)) = ix1 c := by
  funext a; match a with | ⟨0, _⟩ => rfl
theorem bidx_v25 (r : Fin 100000) (c : Fin 128) : idx_main_v24 (idx_main_v25 (ix2 r c)) = ix1 c := by
  funext a; match a with | ⟨0, _⟩ => rfl
theorem bidx_v28 (r : Fin 100000) (c : Fin 128) : idx_main_v27 (idx_main_v28 (ix2 r c)) = ix1 c := by
  funext a; match a with | ⟨0, _⟩ => rfl

theorem mean_eq (c : Fin 128) :
    val_main_v7 (F := Ideal) x0 x2 x3 (ix1 c) = Cert.Spec.mean (hRows x0 x2 x3) c := by
  rw [val_main_v7_apply, val_main_v5_apply, val_main_v6_apply, val_main_cst_0_apply, val_main_cst_apply]
  simp only [sidx_v5, Ideal.hostDivf_def, Ideal.ofBits_def, Ideal.ofBits_zero_f32, zero_add]
  rfl

theorem sqdev_eq (r : Fin 100000) (c : Fin 128) :
    val_main_v11 (F := Ideal) x0 x2 x3 (ix2 r c)
      = (hRows x0 x2 x3 r c - Cert.Spec.mean (hRows x0 x2 x3) c) * (hRows x0 x2 x3 r c - Cert.Spec.mean (hRows x0 x2 x3) c) := by
  rw [val_main_v11_apply, val_main_v10_apply, val_main_v9_apply, val_main_v8_apply, bidx_v9, mean_eq]
  simp only [Ideal.mulf_def, Ideal.subf_def]

theorem var_eq (c : Fin 128) :
    val_main_v14 (F := Ideal) x0 x2 x3 (ix1 c) = Cert.Spec.varR (hRows x0 x2 x3) c := by
  rw [val_main_v14_apply, val_main_v12_apply, val_main_v13_apply, val_main_cst_2_apply, val_main_cst_1_apply]
  simp only [sidx_v12, sqdev_eq, Ideal.hostDivf_def, Ideal.ofBits_def, Ideal.ofBits_zero_f32, zero_add]
  rfl

theorem feat_eq (r : Fin 100000) (c : Fin 128) :
    val_main_v30 (F := Ideal) x0 x2 x3 x4 x5 (ix2 r c)
      = Cert.Spec.feat Cert.Spec.varR (fun r l => x0 (ix2 r l)) (fun c l => x2 (ix2 c l)) (fun c => x3 (ix1 c))
          (fun c => x4 (ix1 c)) (fun c => x5 (ix1 c)) r c := by
  rw [val_main_v30_apply, val_main_call0_v0_apply, val_main_call0_cst_apply, val_main_v29_apply, val_main_v26_apply,
    val_main_v28_apply, val_main_v27_apply, bidx_v28, val_main_v23_apply, val_main_v25_apply, val_main_v24_apply, bidx_v25,
    val_main_v17_apply, val_main_v16_apply, val_main_v15_apply, bidx_v16, val_main_v22_apply, val_main_v21_apply, bidx_v22,
    val_main_v20_apply, val_main_v19_apply, val_main_v18_apply, val_main_cst_3_apply, mean_eq, var_eq]
  simp only [Ideal.maximumf_def, Ideal.addf_def, Ideal.mulf_def, Ideal.subf_def, Ideal.hostUnary_rsqrt_def, Ideal.ofBits_def,
    Ideal.ofBits_zero_f32]
  rw [h_eq, hRows_eq]
  rfl

theorem eidx_v32 (n : Fin 1600000) : idx_main_v31 (idx_main_v32 (ix1 n)) = ix2 (0 : Fin 2) n := by
  funext a
  match a with
  | ⟨0, _⟩ => rfl
  | ⟨1, _⟩ => exact Fin.ext (Nat.mod_eq_of_lt n.isLt)
theorem eidx_v34 (n : Fin 1600000) : idx_main_v33 (idx_main_v34 (ix1 n)) = ix2 (1 : Fin 2) n := by
  funext a
  match a with
  | ⟨0, _⟩ => rfl
  | ⟨1, _⟩ => exact Fin.ext (Nat.mod_eq_of_lt n.isLt)
theorem cidx_v40 (n : Fin 1600000) : idx_main_v40 (ix2 n (0 : Fin 1)) = ix1 n := by
  funext a; match a with | ⟨0, _⟩ => rfl
theorem cidx_v43 (n : Fin 1600000) : idx_main_v43 (ix2 n (0 : Fin 1)) = ix1 n := by
  funext a; match a with | ⟨0, _⟩ => rfl
theorem cidx_v47 (n : Fin 1600000) : idx_main_v47 (ix2 n (0 : Fin 1)) = ix1 n := by
  funext a; match a with | ⟨0, _⟩ => rfl

theorem src_eq (n : Fin 1600000) : val_main_v32 (F := Ideal) x1 (ix1 n) = x1 (ix2 (0 : Fin 2) n) := by
  rw [val_main_v32_apply, val_main_v31_apply, eidx_v32]

theorem dstv_eq (n : Fin 1600000) : val_main_v34 (F := Ideal) x1 (ix1 n) = dst x1 n := by
  rw [val_main_v34_apply, val_main_v33_apply, eidx_v34]
  rfl

theorem widx_eq (n : Fin 1600000) : val_main_v40 (F := Ideal) x1 (ix2 n (0 : Fin 1)) = widx x1 n := by
  rw [val_main_v40_apply, cidx_v40, val_main_v39_apply, val_main_v36_apply, val_main_v38_apply, val_main_v35_apply,
    val_main_v37_apply, val_main_c_apply, val_main_c_4_apply, src_eq]
  exact Cert.EdgeMean.wrap_eq _

theorem dstc_eq (n : Fin 1600000) : val_main_v43 (F := Ideal) x1 (ix2 n (0 : Fin 1)) = dst x1 n := by
  rw [val_main_v43_apply, cidx_v43, dstv_eq]
theorem dstc'_eq (n : Fin 1600000) : val_main_v47 (F := Ideal) x1 (ix2 n (0 : Fin 1)) = dst x1 n := by
  rw [val_main_v47_apply, cidx_v47, dstv_eq]

theorem zeros_v42 (i : S100000x128.Idx) : val_main_v42 (F := Ideal) i = 0 := by
  rw [val_main_v42_apply, val_main_cst_5_apply, Ideal.ofBits_def, Ideal.ofBits_zero_f32]
theorem zeros_v46 (i : S100000.Idx) : val_main_v46 (F := Ideal) i = 0 := by
  rw [val_main_v46_apply, val_main_cst_7_apply, Ideal.ofBits_def, Ideal.ofBits_zero_f32]
theorem ones_v45 (i : S1600000.Idx) : val_main_v45 (F := Ideal) i = Cert.Spec.cOne := by
  rw [val_main_v45_apply, val_main_cst_6_apply, Ideal.ofBits_def]
  rfl

theorem summed_eq (r : Fin 100000) (c : Fin 128) :
    val_main_v44 (F := Ideal) x0 x1 x2 x3 x4 x5 (ix2 r c)
      = Cert.Spec.summed (fRows x0 x2 x3 x4 x5) (widx x1) (dst x1) r c := by
  unfold val_main_v44 val_main_v41
  refine (Cert.EdgeMean.summed_eq gather_S100000x128_S1600000x1_S1600000x128_1_0_n_n_0_1_1128 rfl rfl rfl rfl rfl
    scatter_S100000x128_S1600000x1_S1600000x128_1_0_0_1 rfl rfl rfl rfl
    (val_main_v30 (F := Ideal) x0 x2 x3 x4 x5) (val_main_v42 (F := Ideal)) zeros_v42
    (val_main_v40 (F := Ideal) x1) (val_main_v43 (F := Ideal) x1) r c).trans ?_
  rw [show (fun n => val_main_v40 (F := Ideal) x1 (ix2 n (0 : Fin 1))) = widx x1 from funext (widx_eq x1),
    show (fun n => val_main_v43 (F := Ideal) x1 (ix2 n (0 : Fin 1))) = dst x1 from funext (dstc_eq x1)]

theorem cnt_eq (r : Fin 100000) :
    val_main_v48 (F := Ideal) x1 (ix1 r) = Cert.Spec.cnt (dst x1) r := by
  unfold val_main_v48
  refine (Cert.EdgeMean.cnt_eq scatter_S100000_S1600000x1_S1600000_n_0_0_1 rfl rfl rfl rfl
    (val_main_v46 (F := Ideal)) zeros_v46 (val_main_v45 (F := Ideal)) ones_v45 (val_main_v47 (F := Ideal) x1) r).trans ?_
  rw [show (fun n => val_main_v47 (F := Ideal) x1 (ix2 n (0 : Fin 1))) = dst x1 from funext (dstc'_eq x1)]

theorem bidx_v52 (r : Fin 100000) (c : Fin 128) : idx_main_v51 (idx_main_v52 (ix2 r c)) = ix1 r := by
  funext a; match a with | ⟨0, _⟩ => rfl

theorem agg_eq (r : Fin 100000) (c : Fin 128) :
    val_main_v53 (F := Ideal) x0 x1 x2 x3 x4 x5 (ix2 r c)
      = Cert.Spec.agg (fRows x0 x2 x3 x4 x5) (widx x1) (dst x1) r c := by
  rw [val_main_v53_apply, val_main_v52_apply, val_main_v51_apply, bidx_v52, val_main_v50_apply, val_main_v49_apply,
    val_main_cst_8_apply, Ideal.hostDivf_def, Ideal.maximumf_def, Ideal.ofBits_def, summed_eq, cnt_eq]
  rfl

theorem lidx_v55 (r : Fin 100000) (c k : Fin 128) : lidx_main_v55 (ix2 r c) k = ix2 r k := by
  funext a; match a with | ⟨0, _⟩ => rfl | ⟨1, _⟩ => rfl
theorem ridx_v55 (r : Fin 100000) (c k : Fin 128) : idx_main_v54 (ridx_main_v55 (ix2 r c) k) = ix2 c k := by
  funext a; match a with | ⟨0, _⟩ => rfl | ⟨1, _⟩ => rfl
theorem lidx_v60 (r : Fin 100000) (c k : Fin 128) : lidx_main_v60 (ix2 r c) k = ix2 r k := by
  funext a; match a with | ⟨0, _⟩ => rfl | ⟨1, _⟩ => rfl
theorem ridx_v60 (r : Fin 100000) (c k : Fin 128) : idx_main_v59 (ridx_main_v60 (ix2 r c) k) = ix2 c k := by
  funext a; match a with | ⟨0, _⟩ => rfl | ⟨1, _⟩ => rfl
theorem bidx_v57 (r : Fin 100000) (c : Fin 128) : idx_main_v56 (idx_main_v57 (ix2 r c)) = ix1 c := by
  funext a; match a with | ⟨0, _⟩ => rfl

theorem sage_eq (r : Fin 100000) (c : Fin 128) :
    val_main_v61 (F := Ideal) x0 x1 x2 x3 x4 x5 x6 x7 x8 (ix2 r c)
      = Cert.Spec.sage (Cert.Spec.agg (fRows x0 x2 x3 x4 x5) (widx x1) (dst x1)) (fRows x0 x2 x3 x4 x5)
          (fun c l => x6 (ix2 c l)) (fun c => x7 (ix1 c)) (fun c l => x8 (ix2 c l)) r c := by
  rw [val_main_v61_apply, val_main_v58_apply, val_main_v55_apply, val_main_v57_apply, val_main_v56_apply, bidx_v57,
    val_main_v60_apply, Ideal.addf_def, Ideal.addf_def]
  simp only [val_main_v54_apply, val_main_v59_apply, lidx_v55, ridx_v55, lidx_v60, ridx_v60, agg_eq]
  rfl

theorem sRows_eq :
    sRows x0 x1 x2 x3 x4 x5 x6 x7 x8
      = Cert.Spec.sage (Cert.Spec.agg (fRows x0 x2 x3 x4 x5) (widx x1) (dst x1)) (fRows x0 x2 x3 x4 x5)
          (fun c l => x6 (ix2 c l)) (fun c => x7 (ix1 c)) (fun c l => x8 (ix2 c l)) :=
  funext fun r => funext fun c => sage_eq x0 x1 x2 x3 x4 x5 x6 x7 x8 r c

theorem sidx_v62 (c : Fin 128) (k : Fin 100000) : idx_main_v62 (ix1 c) k = ix2 k c := by
  funext a; match a with | ⟨0, _⟩ => rfl | ⟨1, _⟩ => rfl
theorem sidx_v69 (c : Fin 128) (k : Fin 100000) : idx_main_v69 (ix1 c) k = ix2 k c := by
  funext a; match a with | ⟨0, _⟩ => rfl | ⟨1, _⟩ => rfl
theorem bidx_v66 (r : Fin 100000) (c : Fin 128) : idx_main_v65 (idx_main_v66 (ix2 r c)) = ix1 c := by
  funext a; match a with | ⟨0, _⟩ => rfl
theorem bidx_v73 (r : Fin 100000) (c : Fin 128) : idx_main_v72 (idx_main_v73 (ix2 r c)) = ix1 c := by
  funext a; match a with | ⟨0, _⟩ => rfl
theorem bidx_v79 (r : Fin 100000) (c : Fin 128) : idx_main_v78 (idx_main_v79 (ix2 r c)) = ix1 c := by
  funext a; match a with | ⟨0, _⟩ => rfl
theorem bidx_v82 (r : Fin 100000) (c : Fin 128) : idx_main_v81 (idx_main_v82 (ix2 r c)) = ix1 c := by
  funext a; match a with | ⟨0, _⟩ => rfl
theorem bidx_v85 (r : Fin 100000) (c : Fin 128) : idx_main_v84 (idx_main_v85 (ix2 r c)) = ix1 c := by
  funext a; match a with | ⟨0, _⟩ => rfl

theorem mean2_eq (c : Fin 128) :
    val_main_v64 (F := Ideal) x0 x1 x2 x3 x4 x5 x6 x7 x8 (ix1 c) = Cert.Spec.mean (sRows x0 x1 x2 x3 x4 x5 x6 x7 x8) c := by
  rw [val_main_v64_apply, val_main_v62_apply, val_main_v63_apply, val_main_cst_10_apply, val_main_cst_9_apply]
  simp only [sidx_v62, Ideal.hostDivf_def, Ideal.ofBits_def, Ideal.ofBits_zero_f32, zero_add]
  rfl

theorem sqdev2_eq (r : Fin 100000) (c : Fin 128) :
    val_main_v68 (F := Ideal) x0 x1 x2 x3 x4 x5 x6 x7 x8 (ix2 r c)
      = (sRows x0 x1 x2 x3 x4 x5 x6 x7 x8 r c - Cert.Spec.mean (sRows x0 x1 x2 x3 x4 x5 x6 x7 x8) c)
        * (sRows x0 x1 x2 x3 x4 x5 x6 x7 x8 r c - Cert.Spec.mean (sRows x0 x1 x2 x3 x4 x5 x6 x7 x8) c) := by
  rw [val_main_v68_apply, val_main_v67_apply, val_main_v66_apply, val_main_v65_apply, bidx_v66, mean2_eq]
  simp only [Ideal.mulf_def, Ideal.subf_def]

theorem var2_eq (c : Fin 128) :
    val_main_v71 (F := Ideal) x0 x1 x2 x3 x4 x5 x6 x7 x8 (ix1 c) = Cert.Spec.varR (sRows x0 x1 x2 x3 x4 x5 x6 x7 x8) c := by
  rw [val_main_v71_apply, val_main_v69_apply, val_main_v70_apply, val_main_cst_12_apply, val_main_cst_11_apply]
  simp only [sidx_v69, sqdev2_eq, Ideal.hostDivf_def, Ideal.ofBits_def, Ideal.ofBits_zero_f32, zero_add]
  rfl

theorem out_eq (r : Fin 100000) (c : Fin 128) :
    val_main_v86 (F := Ideal) x0 x1 x2 x3 x4 x5 x6 x7 x8 x9 x10 (ix2 r c)
      = Cert.Spec.out Cert.Spec.varR (fun r c => val_main_v30 (F := Ideal) x0 x2 x3 x4 x5 (ix2 r c)) (widx x1) (dst x1)
          (fun c l => x6 (ix2 c l)) (fun c => x7 (ix1 c)) (fun c l => x8 (ix2 c l))
          (fun c => x9 (ix1 c)) (fun c => x10 (ix1 c)) r c := by
  rw [val_main_v86_apply, val_main_v83_apply, val_main_v85_apply, val_main_v84_apply, bidx_v85, val_main_v80_apply,
    val_main_v82_apply, val_main_v81_apply, bidx_v82, val_main_v74_apply, val_main_v73_apply, val_main_v72_apply, bidx_v73,
    val_main_v79_apply, val_main_v78_apply, bidx_v79, val_main_v77_apply, val_main_v76_apply, val_main_v75_apply,
    val_main_cst_13_apply, mean2_eq, var2_eq]
  simp only [Ideal.addf_def, Ideal.mulf_def, Ideal.subf_def, Ideal.hostUnary_rsqrt_def, Ideal.ofBits_def]
  rw [sage_eq, sRows_eq]
  rfl

end

end Cert.ReferenceIdeal.RVal

end
-- ==== Proof.lean ====
import proofs.«427484_j7000796693090_1_alg».proof.Defs
import proofs.«427484_j7000796693090_1_alg».proof.Proof.Gen.Kernel
import proofs.«427484_j7000796693090_1_alg».proof.Proof.Gen.KernelIdeal
import proofs.«427484_j7000796693090_1_alg».proof.Proof.Gen.ReferenceIdeal
import proofs.«427484_j7000796693090_1_alg».proof.Proof.Gen.Pre_finite_inputs
import proofs.«427484_j7000796693090_1_alg».proof.Proof.Gen.ReferenceIdeal.Read
import proofs.«427484_j7000796693090_1_alg».proof.Proof.SpecAlg
import proofs.«427484_j7000796693090_1_alg».proof.Proof.PreFacts
import proofs.«427484_j7000796693090_1_alg».proof.Proof.KnRun
import proofs.«427484_j7000796693090_1_alg».proof.Proof.KiRun
import proofs.«427484_j7000796693090_1_alg».proof.Proof.KAsm
import proofs.«427484_j7000796693090_1_alg».proof.Proof.RVal
import Idealize.ShloMosaic.Lib.ValueIdx
import Idealize.ShloMosaic.Adequacy
import Idealize.ShloMosaic.Init

noncomputable section

namespace Cert.Proof

open Idealize.ShloMosaic Idealize.ShloMosaic.TcCoe Idealize.ShloMosaic.ValueIdx Idealize.SL.Sem
open Cert.KernelIdeal Cert.KernelIdeal.Hand

attribute [local instance] Cert.Kernel.Gen.facts Cert.KernelIdeal.Gen.facts Cert.ReferenceIdeal.Gen.facts Cert.Pre_finite_inputs.Gen.facts

theorem frame_k : Cert.frame_Kernel := fun m ρ _ => Cert.Kernel.Hand.frame m ρ

theorem frame_ki : Cert.frame_KernelIdeal := fun m ρ _ => frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

section Results

variable (m : (ℓ : Loc nD τ sig) → Buf (Elt Ideal) ℓ) (ρ : Dev nD → PrngReg) (c : Dev nD)

abbrev arg (b : Ref sig .tc) : Buf (Elt Ideal) ((c.tc : Thread nD τ).loc b) := m ((c.tc : Thread nD τ).loc b)

-- The reference's first stage is the specification with the reference's variance; on real inputs that is the
-- specification with the kernel's variance, which the kernel program ends with.
theorem feat_agree (hp : Cert.Pre_KernelIdeal m)
    (y0 : FVec Ideal Cert.ReferenceIdeal.S100000x48 .f32) (y2 : FVec Ideal Cert.ReferenceIdeal.S128x48 .f32) (y3 y4 y5 : FVec Ideal Cert.ReferenceIdeal.S128 .f32)
    (e0 : y0 = arg m c main_arg0) (e2 : y2 = arg m c main_arg2) (e3 : y3 = arg m c main_arg3) (e4 : y4 = arg m c main_arg4) (e5 : y5 = arg m c main_arg5)
    (r : Fin 100000) (k : Fin 128) :
    Cert.ReferenceIdeal.Read.val_main_v30 (F := Ideal) y0 y2 y3 y4 y5 (ix2 r k) = W10 m ρ c (Proc.devRef .tc main_v13) (ix2 r k) := by
  subst e0 e2 e3 e4 e5
  obtain ⟨h0, h2, h3, -⟩ := Cert.PreFacts.decode _ _ _ _ _ _ _ _ _ _ _ (hp c)
  exact (Cert.ReferenceIdeal.RVal.feat_eq _ _ _ _ _ r k).trans
    ((congrFun (congrFun (Cert.Spec.feat_K_eq_R _ _ _ _ _ h0 h2 h3) r) k).symm.trans (Val.featK m ρ c r k).symm)

-- Likewise for the second result, over a first result that is the kernel's and is real at every index.
theorem out_agree (hp : Cert.Pre_KernelIdeal m)
    (y0 : FVec Ideal Cert.ReferenceIdeal.S100000x48 .f32) (y1 : IVec Cert.ReferenceIdeal.S2x1600000 32) (y2 : FVec Ideal Cert.ReferenceIdeal.S128x48 .f32) (y3 y4 y5 : FVec Ideal Cert.ReferenceIdeal.S128 .f32)
    (y6 : FVec Ideal Cert.ReferenceIdeal.S128x128 .f32) (y7 : FVec Ideal Cert.ReferenceIdeal.S128 .f32) (y8 : FVec Ideal Cert.ReferenceIdeal.S128x128 .f32) (y9 y10 : FVec Ideal Cert.ReferenceIdeal.S128 .f32)
    (e0 : y0 = arg m c main_arg0) (e1 : y1 = arg m c main_arg1) (e2 : y2 = arg m c main_arg2) (e3 : y3 = arg m c main_arg3) (e4 : y4 = arg m c main_arg4) (e5 : y5 = arg m c main_arg5)
    (e6 : y6 = arg m c main_arg6) (e7 : y7 = arg m c main_arg7) (e8 : y8 = arg m c main_arg8) (e9 : y9 = arg m c main_arg9) (e10 : y10 = arg m c main_arg10)
    (r : Fin 100000) (k : Fin 128) :
    Cert.ReferenceIdeal.Read.val_main_v86 (F := Ideal) y0 y1 y2 y3 y4 y5 y6 y7 y8 y9 y10 (ix2 r k) = W10 m ρ c (Proc.devRef .tc main_v38) (ix2 r k) := by
  have hf : (fun (r : Fin 100000) (c' : Fin 128) => Cert.ReferenceIdeal.Read.val_main_v30 (F := Ideal) y0 y2 y3 y4 y5 (ix2 r c'))
      = fun r c' => W10 m ρ c (Proc.devRef .tc main_v13) (ix2 r c') :=
    funext fun r => funext fun c' => feat_agree m ρ c hp y0 y2 y3 y4 y5 e0 e2 e3 e4 e5 r c'
  subst e0 e1 e2 e3 e4 e5 e6 e7 e8 e9 e10
  obtain ⟨h0, h2, h3, h4, h5, h6, h7, h8, h9, h10, hsrc⟩ := Cert.PreFacts.decode _ _ _ _ _ _ _ _ _ _ _ (hp c)
  exact (Cert.ReferenceIdeal.RVal.out_eq _ _ _ _ _ _ _ _ _ _ _ r k).trans
    ((congrFun (congrFun (Cert.Spec.out_K_eq_R _ _ _ _ _ _ _ _
        (fun r c' => (Cert.ReferenceIdeal.RVal.feat_eq _ _ _ _ _ r c').symm ▸ Cert.Spec.feat_isReal _ _ _ _ _ h0 h2 h3 h4 h5 r c') h6 h7 h8) r) k).symm.trans
      ((congrArg (fun f => Cert.Spec.out Cert.Spec.varK f _ _ _ _ _ _ _ r k) hf).trans (Val.outK m ρ c hsrc r k).symm))

end Results

theorem algebraic : Cert.algebraic_KernelIdeal_ReferenceIdeal := by
  intro m ρ m' ρ' hpre hagree
  refine ⟨fun c => W10 m ρ c (Proc.devRef .tc main_v13), fun c => W10 m ρ c (Proc.devRef .tc main_v38), ?_, ?_⟩
  · exact (θ_run Cert.KernelIdeal.defs _ _).mono (fun r h c =>
      ⟨h c _ (mem_uc main_v13 (by decide)), h c _ (mem_uc main_v38 (by decide)),
       (h c _ (mem_uc main_arg0 (by decide))).trans (W10_kept m ρ c main_arg0 (by decide)),
       (h c _ (mem_uc main_arg1 (by decide))).trans (W10_kept m ρ c main_arg1 (by decide)),
       (h c _ (mem_uc main_arg2 (by decide))).trans (W10_kept m ρ c main_arg2 (by decide)),
       (h c _ (mem_uc main_arg3 (by decide))).trans (W10_kept m ρ c main_arg3 (by decide)),
       (h c _ (mem_uc main_arg4 (by decide))).trans (W10_kept m ρ c main_arg4 (by decide)),
       (h c _ (mem_uc main_arg5 (by decide))).trans (W10_kept m ρ c main_arg5 (by decide)),
       (h c _ (mem_uc main_arg6 (by decide))).trans (W10_kept m ρ c main_arg6 (by decide)),
       (h c _ (mem_uc main_arg7 (by decide))).trans (W10_kept m ρ c main_arg7 (by decide)),
       (h c _ (mem_uc main_arg8 (by decide))).trans (W10_kept m ρ c main_arg8 (by decide)),
       (h c _ (mem_uc main_arg9 (by decide))).trans (W10_kept m ρ c main_arg9 (by decide)),
       (h c _ (mem_uc main_arg10 (by decide))).trans (W10_kept m ρ c main_arg10 (by decide))⟩)
      (run m ρ)
  · refine (θ_run Cert.ReferenceIdeal.defs _ _).mono (fun r h c => ⟨(h c).1.trans ?_, (h c).2.1.trans ?_, (h c).2.2⟩)
      (Cert.ReferenceIdeal.Value.run (F := Ideal) m' ρ')
    all_goals obtain ⟨e0, e1, e2, e3, e4, e5, e6, e7, e8, e9, e10⟩ := hagree c
    · refine (Cert.ReferenceIdeal.Read.val_main_v30_eq _ _ _ _ _).trans (funext fun i => ?_)
      obtain ⟨r, k, rfl⟩ : ∃ (r : Fin 100000) (k : Fin 128), i = ix2 r k := ⟨i 0, i 1, eq_ix2 i⟩
      exact feat_agree m ρ c hpre _ _ _ _ _ e0 e2 e3 e4 e5 r k
    · refine (Cert.ReferenceIdeal.Read.val_main_v86_eq m' c).trans (funext fun i => ?_)
      obtain ⟨r, k, rfl⟩ : ∃ (r : Fin 100000) (k : Fin 128), i = ix2 r k := ⟨i 0, i 1, eq_ix2 i⟩
      exact out_agree m ρ c hpre _ _ _ _ _ _ _ _ _ _ _ e0 e1 e2 e3 e4 e5 e6 e7 e8 e9 e10 r k

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
